-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2x2048x1024 .f32) (main_arg1 : FVec F S3072x1024 .f32) (main_arg2 : FVec F S1024x1024 .f32) (main_arg3 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S16x3x64x1024 : Shape := ⟨4, ![16, 3, 64, 1024]⟩
abbrev S3x16x64x1024 : Shape := ⟨4, ![3, 16, 64, 1024]⟩
abbrev S1x256x1024 : Shape := ⟨3, ![1, 256, 1024]⟩
abbrev S256x1024 : Shape := ⟨2, ![256, 1024]⟩
abbrev S256x3072 : Shape := ⟨2, ![256, 3072]⟩
abbrev S1x512x1024 : Shape := ⟨3, ![1, 512, 1024]⟩
abbrev S1x2048x1024 : Shape := ⟨3, ![1, 2048, 1024]⟩
abbrev S512x16x1 : Shape := ⟨3, ![512, 16, 1]⟩
abbrev S512x16x64 : Shape := ⟨3, ![512, 16, 64]⟩
abbrev S512x1024 : Shape := ⟨2, ![512, 1024]⟩
abbrev S512x64 : Shape := ⟨2, ![512, 64]⟩
abbrev S256x64 : Shape := ⟨2, ![256, 64]⟩
abbrev S512x256 : Shape := ⟨2, ![512, 256]⟩
abbrev S512x1x1 : Shape := ⟨3, ![512, 1, 1]⟩
abbrev S512x1 : Shape := ⟨2, ![512, 1]⟩
abbrev S512 : Shape := ⟨1, ![512]⟩
abbrev S512x1x64 : Shape := ⟨3, ![512, 1, 64]⟩
abbrev S1x1024 : Shape := ⟨2, ![1, 1024]⟩

abbrev nBuf : Space → Nat
  | .hbm => 13
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S16x3x64x1024, .f32⟩
  | .hbm, ⟨5, _⟩ => ⟨S3x16x64x1024, .f32⟩
  | .hbm, ⟨6, _⟩ => ⟨S3072x1024, .f32⟩
  | .hbm, ⟨7, _⟩ => ⟨S3072x1024, .bf16⟩
  | .hbm, ⟨8, _⟩ => ⟨S1024x1024, .bf16⟩
  | .hbm, ⟨9, _⟩ => ⟨S2x2048x1024, .bf16⟩
  | .hbm, ⟨10, _⟩ => ⟨S2x2048x1024, .bf16⟩
  | .hbm, ⟨11, _⟩ => ⟨S2x2048x1024, .bf16⟩
  | .hbm, ⟨12, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S3072x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1024x1024, .bf16⟩
  | .local _ .vmem, ⟨16, _⟩ => ⟨S1024, .f32⟩
  | .local _ .vmem, ⟨17, _⟩ => ⟨S1x512x1024, .f32⟩
  | .local _ .vmem, ⟨18, _⟩ => ⟨S1x512x1024, .f32⟩
  | .local _ .vmem, ⟨19, _⟩ => ⟨S512x16x1, .f32⟩
  | .local _ .vmem, ⟨20, _⟩ => ⟨S512x16x1, .f32⟩
  | .local _ .vmem, ⟨21, _⟩ => ⟨S512x16x64, .f32⟩
  | .local _ .vmem, ⟨22, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch3 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 4, 8], ![false, false, false]⟩

def k1_mult1 (i : grid1.Coords) : BitVec 32 :=
  let arg2 : BitVec 32 := BitVec.ofNat 32 (i 2).val
  let c256_i32 : BitVec 32 := 256#32
  let v3 : BitVec 32 := Scalar.muli arg2 c256_i32
  v3
def k1_off1 (i : grid1.Coords) : Fin 3 → Nat :=
  let c0 : Index := 0#32
  let arg2 : BitVec 32 := BitVec.ofNat 32 (i 2).val
  let c256_i32 : BitVec 32 := 256#32
  let v3 : BitVec 32 := Scalar.muli arg2 c256_i32
  let v4 : BitVec 32 := v3
  let v5 : Index := Scalar.indexCast v4
  let c0_1 : Index := 0#32
  ![0, v5.toNat, 0]
def k1_cond2 (i : grid1.Coords) : BitVec 1 :=
  let arg2 : BitVec 32 := BitVec.ofNat 32 (i 2).val
  let c7_i32 : BitVec 32 := 7#32
  let v588 : BitVec 1 := Scalar.cmpi .eq arg2 c7_i32
  let v589 : BitVec 32 := Scalar.extui v588
  let c0_i32_342 : BitVec 32 := 0#32
  let v590 : BitVec 1 := Scalar.cmpi .ne v589 c0_i32_342
  v590

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S3072x1024_S16x3x64x1024 : S3072x1024.ShapeCasts S16x3x64x1024
  transposes_S16x3x64x1024_S3x16x64x1024_1_0_2_3 : S16x3x64x1024.Transposes [1, 0, 2, 3] S3x16x64x1024
  shapeCasts_S3x16x64x1024_S3072x1024 : S3x16x64x1024.ShapeCasts S3072x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  slices_S256x3072_o0_0_S256x1024 : S256x3072.Slices ![0, 0] S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  slices_S256x3072_o0_1024_S256x1024 : S256x3072.Slices ![0, 1024] S256x1024
  slices_S256x3072_o0_2048_S256x1024 : S256x3072.Slices ![0, 2048] S256x1024
  inb_S512x16x1_S512x16x1_0_0_0 : ∀ a, (![0, 0, 0] : Fin 3 → Nat) a + S512x16x1.size a ≤ S512x16x1.size a
  h_S512x16x1 : 0 < S512x16x1.numel
  shapeCasts_S512x16x1_S512x16x1 : S512x16x1.ShapeCasts S512x16x1
  inb_S512x16x64_S512x16x64_0_0_0 : ∀ a, (![0, 0, 0] : Fin 3 → Nat) a + S512x16x64.size a ≤ S512x16x64.size a
  h_S512x16x64 : 0 < S512x16x64.numel
  shapeCasts_S512x16x64_S512x16x64 : S512x16x64.ShapeCasts S512x16x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  slices_S512x1024_o0_0_S512x64 : S512x1024.Slices ![0, 0] S512x64
  slices_S256x1024_o0_0_S256x64 : S256x1024.Slices ![0, 0] S256x64
  inb_S512x16x1_S512x1x1_0_0_0 : ∀ a, (![0, 0, 0] : Fin 3 → Nat) a + S512x1x1.size a ≤ S512x16x1.size a
  h_S512x1x1 : 0 < S512x1x1.numel
  shapeCasts_S512x1x1_S512x1 : S512x1x1.ShapeCasts S512x1
  reduces_S512x256_S512 : S512x256.Reduces [1] S512
  shapeCasts_S512_S512x1 : S512.ShapeCasts S512x1
  broadcasts_S512x1_S512x256 : S512x1.Broadcasts S512x256
  shapeCasts_S512x1_S512x1x1 : S512x1.ShapeCasts S512x1x1
  inb_S512x16x64_S512x1x64_0_0_0 : ∀ a, (![0, 0, 0] : Fin 3 → Nat) a + S512x1x64.size a ≤ S512x16x64.size a
  h_S512x1x64 : 0 < S512x1x64.numel
  shapeCasts_S512x1x64_S512x64 : S512x1x64.ShapeCasts S512x64
  broadcasts_S512x1_S512x64 : S512x1.Broadcasts S512x64
  shapeCasts_S512x64_S512x1x64 : S512x64.ShapeCasts S512x1x64
  slices_S512x1024_o0_64_S512x64 : S512x1024.Slices ![0, 64] S512x64
  slices_S256x1024_o0_64_S256x64 : S256x1024.Slices ![0, 64] S256x64
  inb_S512x16x1_S512x1x1_0_1_0 : ∀ a, (![0, 1, 0] : Fin 3 → Nat) a + S512x1x1.size a ≤ S512x16x1.size a
  inb_S512x16x64_S512x1x64_0_1_0 : ∀ a, (![0, 1, 0] : Fin 3 → Nat) a + S512x1x64.size a ≤ S512x16x64.size a
  slices_S512x1024_o0_128_S512x64 : S512x1024.Slices ![0, 128] S512x64
  slices_S256x1024_o0_128_S256x64 : S256x1024.Slices ![0, 128] S256x64
  inb_S512x16x1_S512x1x1_0_2_0 : ∀ a, (![0, 2, 0] : Fin 3 → Nat) a + S512x1x1.size a ≤ S512x16x1.size a
  inb_S512x16x64_S512x1x64_0_2_0 : ∀ a, (![0, 2, 0] : Fin 3 → Nat) a + S512x1x64.size a ≤ S512x16x64.size a
  slices_S512x1024_o0_192_S512x64 : S512x1024.Slices ![0, 192] S512x64
  slices_S256x1024_o0_192_S256x64 : S256x1024.Slices ![0, 192] S256x64
  inb_S512x16x1_S512x1x1_0_3_0 : ∀ a, (![0, 3, 0] : Fin 3 → Nat) a + S512x1x1.size a ≤ S512x16x1.size a
  inb_S512x16x64_S512x1x64_0_3_0 : ∀ a, (![0, 3, 0] : Fin 3 → Nat) a + S512x1x64.size a ≤ S512x16x64.size a
  slices_S512x1024_o0_256_S512x64 : S512x1024.Slices ![0, 256] S512x64
  slices_S256x1024_o0_256_S256x64 : S256x1024.Slices ![0, 256] S256x64
  inb_S512x16x1_S512x1x1_0_4_0 : ∀ a, (![0, 4, 0] : Fin 3 → Nat) a + S512x1x1.size a ≤ S512x16x1.size a
  inb_S512x16x64_S512x1x64_0_4_0 : ∀ a, (![0, 4, 0] : Fin 3 → Nat) a + S512x1x64.size a ≤ S512x16x64.size a
  slices_S512x1024_o0_320_S512x64 : S512x1024.Slices ![0, 320] S512x64
  slices_S256x1024_o0_320_S256x64 : S256x1024.Slices ![0, 320] S256x64
  inb_S512x16x1_S512x1x1_0_5_0 : ∀ a, (![0, 5, 0] : Fin 3 → Nat) a + S512x1x1.size a ≤ S512x16x1.size a
  inb_S512x16x64_S512x1x64_0_5_0 : ∀ a, (![0, 5, 0] : Fin 3 → Nat) a + S512x1x64.size a ≤ S512x16x64.size a
  slices_S512x1024_o0_384_S512x64 : S512x1024.Slices ![0, 384] S512x64
  slices_S256x1024_o0_384_S256x64 : S256x1024.Slices ![0, 384] S256x64
  inb_S512x16x1_S512x1x1_0_6_0 : ∀ a, (![0, 6, 0] : Fin 3 → Nat) a + S512x1x1.size a ≤ S512x16x1.size a
  inb_S512x16x64_S512x1x64_0_6_0 : ∀ a, (![0, 6, 0] : Fin 3 → Nat) a + S512x1x64.size a ≤ S512x16x64.size a
  slices_S512x1024_o0_448_S512x64 : S512x1024.Slices ![0, 448] S512x64
  slices_S256x1024_o0_448_S256x64 : S256x1024.Slices ![0, 448] S256x64
  inb_S512x16x1_S512x1x1_0_7_0 : ∀ a, (![0, 7, 0] : Fin 3 → Nat) a + S512x1x1.size a ≤ S512x16x1.size a
  inb_S512x16x64_S512x1x64_0_7_0 : ∀ a, (![0, 7, 0] : Fin 3 → Nat) a + S512x1x64.size a ≤ S512x16x64.size a
  slices_S512x1024_o0_512_S512x64 : S512x1024.Slices ![0, 512] S512x64
  slices_S256x1024_o0_512_S256x64 : S256x1024.Slices ![0, 512] S256x64
  inb_S512x16x1_S512x1x1_0_8_0 : ∀ a, (![0, 8, 0] : Fin 3 → Nat) a + S512x1x1.size a ≤ S512x16x1.size a
  inb_S512x16x64_S512x1x64_0_8_0 : ∀ a, (![0, 8, 0] : Fin 3 → Nat) a + S512x1x64.size a ≤ S512x16x64.size a
  slices_S512x1024_o0_576_S512x64 : S512x1024.Slices ![0, 576] S512x64
  slices_S256x1024_o0_576_S256x64 : S256x1024.Slices ![0, 576] S256x64
  inb_S512x16x1_S512x1x1_0_9_0 : ∀ a, (![0, 9, 0] : Fin 3 → Nat) a + S512x1x1.size a ≤ S512x16x1.size a
  inb_S512x16x64_S512x1x64_0_9_0 : ∀ a, (![0, 9, 0] : Fin 3 → Nat) a + S512x1x64.size a ≤ S512x16x64.size a
  slices_S512x1024_o0_640_S512x64 : S512x1024.Slices ![0, 640] S512x64
  slices_S256x1024_o0_640_S256x64 : S256x1024.Slices ![0, 640] S256x64
  inb_S512x16x1_S512x1x1_0_10_0 : ∀ a, (![0, 10, 0] : Fin 3 → Nat) a + S512x1x1.size a ≤ S512x16x1.size a
  inb_S512x16x64_S512x1x64_0_10_0 : ∀ a, (![0, 10, 0] : Fin 3 → Nat) a + S512x1x64.size a ≤ S512x16x64.size a
  slices_S512x1024_o0_704_S512x64 : S512x1024.Slices ![0, 704] S512x64
  slices_S256x1024_o0_704_S256x64 : S256x1024.Slices ![0, 704] S256x64
  inb_S512x16x1_S512x1x1_0_11_0 : ∀ a, (![0, 11, 0] : Fin 3 → Nat) a + S512x1x1.size a ≤ S512x16x1.size a
  inb_S512x16x64_S512x1x64_0_11_0 : ∀ a, (![0, 11, 0] : Fin 3 → Nat) a + S512x1x64.size a ≤ S512x16x64.size a
  slices_S512x1024_o0_768_S512x64 : S512x1024.Slices ![0, 768] S512x64
  slices_S256x1024_o0_768_S256x64 : S256x1024.Slices ![0, 768] S256x64
  inb_S512x16x1_S512x1x1_0_12_0 : ∀ a, (![0, 12, 0] : Fin 3 → Nat) a + S512x1x1.size a ≤ S512x16x1.size a
  inb_S512x16x64_S512x1x64_0_12_0 : ∀ a, (![0, 12, 0] : Fin 3 → Nat) a + S512x1x64.size a ≤ S512x16x64.size a
  slices_S512x1024_o0_832_S512x64 : S512x1024.Slices ![0, 832] S512x64
  slices_S256x1024_o0_832_S256x64 : S256x1024.Slices ![0, 832] S256x64
  inb_S512x16x1_S512x1x1_0_13_0 : ∀ a, (![0, 13, 0] : Fin 3 → Nat) a + S512x1x1.size a ≤ S512x16x1.size a
  inb_S512x16x64_S512x1x64_0_13_0 : ∀ a, (![0, 13, 0] : Fin 3 → Nat) a + S512x1x64.size a ≤ S512x16x64.size a
  slices_S512x1024_o0_896_S512x64 : S512x1024.Slices ![0, 896] S512x64
  slices_S256x1024_o0_896_S256x64 : S256x1024.Slices ![0, 896] S256x64
  inb_S512x16x1_S512x1x1_0_14_0 : ∀ a, (![0, 14, 0] : Fin 3 → Nat) a + S512x1x1.size a ≤ S512x16x1.size a
  inb_S512x16x64_S512x1x64_0_14_0 : ∀ a, (![0, 14, 0] : Fin 3 → Nat) a + S512x1x64.size a ≤ S512x16x64.size a
  slices_S512x1024_o0_960_S512x64 : S512x1024.Slices ![0, 960] S512x64
  slices_S256x1024_o0_960_S256x64 : S256x1024.Slices ![0, 960] S256x64
  inb_S512x16x1_S512x1x1_0_15_0 : ∀ a, (![0, 15, 0] : Fin 3 → Nat) a + S512x1x1.size a ≤ S512x16x1.size a
  inb_S512x16x64_S512x1x64_0_15_0 : ∀ a, (![0, 15, 0] : Fin 3 → Nat) a + S512x1x64.size a ≤ S512x16x64.size a
  broadcasts_S512x16x1_S512x16x64 : S512x16x1.Broadcasts S512x16x64
  shapeCasts_S512x16x64_S512x1024 : S512x16x64.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  dot_S256x1024_S3072x1024_S256x3072_1_1_0_0_n_n_wf : DotDims.WF S256x1024 S3072x1024 S256x3072 [1] [1] [0] [0] [] []
  dot_S512x64_S256x64_S512x256_1_1_0_0_n_n_wf : DotDims.WF S512x64 S256x64 S512x256 [1] [1] [0] [0] [] []
  dot_S512x256_S256x64_S512x64_1_0_0_1_n_n_wf : DotDims.WF S512x256 S256x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S2x2048x1024.size a
  hwx0_0 : ∀ i : grid0.Coords, EltTy.bits .f32 = 32 ∨ (Rect.block (s := S2x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S2x2048x1024.size a
  hwx0_2 : ∀ i : grid0.Coords, EltTy.bits .bf16 = 32 ∨ (Rect.block (s := S2x2048x1024) S1x256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S2x2048x1024.size a
  hwx0_3 : ∀ i : grid0.Coords, EltTy.bits .bf16 = 32 ∨ (Rect.block (s := S2x2048x1024) S1x256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S2x2048x1024.size a
  hwx0_4 : ∀ i : grid0.Coords, EltTy.bits .bf16 = 32 ∨ (Rect.block (s := S2x2048x1024) S1x256x1024.size (cc0_transform_4 i) (hinb0_4 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S1x256x1024.size a ≤ S1x2048x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S2x2048x1024.size a
  hwx1_0 : ∀ i : grid1.Coords, EltTy.bits .bf16 = 32 ∨ (Rect.block (s := S2x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S2x2048x1024.size a
  hwx1_1 : ∀ i : grid1.Coords, EltTy.bits .bf16 = 32 ∨ (Rect.block (s := S2x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S2x2048x1024.size a
  hwx1_2 : ∀ i : grid1.Coords, EltTy.bits .bf16 = 32 ∨ (Rect.block (s := S2x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S2x2048x1024.size a
  hwx1_5 : ∀ i : grid1.Coords, EltTy.bits .f32 = 32 ∨ (Rect.block (s := S2x2048x1024) S1x512x1024.size (cc1_transform_5 i) (hinb1_5 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf
def dot_S512x64_S256x64_S512x256_1_1_0_0_n_n : DotDims S512x64 S256x64 S512x256 where
  lhsContracting := [1]
  rhsContracting := [1]
  lhsNonContracting := [0]
  rhsNonContracting := [0]
  lhsBatch := []
  rhsBatch := []
  wf := dot_S512x64_S256x64_S512x256_1_1_0_0_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S1x256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_2) S1x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5_0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S2x2048x3072 : Shape := ⟨3, ![2, 2048, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S2x2048x3072, .f32⟩
  | .hbm, ⟨5, _⟩ => ⟨S2x2048x16x192, .f32⟩
  | .hbm, ⟨6, _⟩ => ⟨S2x16x2048x192, .f32⟩
  | .hbm, ⟨7, _⟩ => ⟨S2x16x2048x64, .f32⟩
  | .hbm, ⟨8, _⟩ => ⟨S2x16x2048x64, .f32⟩
  | .hbm, ⟨9, _⟩ => ⟨S2x16x2048x64, .f32⟩
  | .hbm, ⟨10, _⟩ => ⟨S2x16x2048x2048, .f32⟩
  | .hbm, ⟨11, _⟩ => ⟨S_, .f32⟩
  | .hbm, ⟨12, _⟩ => ⟨S_, .f32⟩
  | .hbm, ⟨13, _⟩ => ⟨S2x16x2048x2048, .f32⟩
  | .hbm, ⟨14, _⟩ => ⟨S2x16x2048x2048, .f32⟩
  | .hbm, ⟨15, _⟩ => ⟨S_, .f32⟩
  | .hbm, ⟨16, _⟩ => ⟨S2x16x2048, .f32⟩
  | .hbm, ⟨17, _⟩ => ⟨S_, .f32⟩
  | .hbm, ⟨18, _⟩ => ⟨S2x16x2048, .f32⟩
  | .hbm, ⟨19, _⟩ => ⟨S2x16x2048, .f32⟩
  | .hbm, ⟨20, _⟩ => ⟨S2x16x2048x1, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x64, .f32⟩
  | .hbm, ⟨30, _⟩ => ⟨S2x2048x16x64, .f32⟩
  | .hbm, ⟨31, _⟩ => ⟨S2x2048x1024, .f32⟩
  | .hbm, ⟨32, _⟩ => ⟨S2x2048x1024, .f32⟩
  | .hbm, ⟨33, _⟩ => ⟨S1x1x1024, .f32⟩
  | .hbm, ⟨34, _⟩ => ⟨S2x2048x1024, .f32⟩
  | .hbm, ⟨35, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KB.Vals.lean ====
import proofs.«411452_j50508815401447_3_alg».proof.Proof.Gen.Kernel.Launch
import proofs.«411452_j50508815401447_3_alg».proof.Proof.Gen.Kernel.Regions
import Idealize.ShloMosaic.Lib.Pipeline.FrameBody
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

end Cert.Kernel.Hand

end
-- ==== Proof.KB.R0.lean ====
import proofs.«411452_j50508815401447_3_alg».proof.Proof.Gen.Kernel.Launch
import proofs.«411452_j50508815401447_3_alg».proof.Proof.Gen.Kernel.Skeleton
import proofs.«411452_j50508815401447_3_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1x256x1024 := Rect.unit (s := S1x256x1024) ![0, 0, 0] S1x256x1024.size inb_S1x256x1024_S1x256x1024_0_0_0

abbrev r0_1 : Rect S3072x1024 := Rect.unit (s := S3072x1024) ![0, 0] S3072x1024.size inb_S3072x1024_S3072x1024_0_0

def out0_2 (x0 : Vec F S1x256x1024 .f32) (x1 : Vec F S3072x1024 .bf16) : Vec F S1x256x1024 .bf16 :=
  View.canon [⟨r0_0, k0_pay2 (View.ld x0 r0_0) (View.ld x1 r0_1)⟩]

def out0_3 (x0 : Vec F S1x256x1024 .f32) (x1 : Vec F S3072x1024 .bf16) : Vec F S1x256x1024 .bf16 :=
  View.canon [⟨r0_0, k0_pay3 (View.ld x0 r0_0) (View.ld x1 r0_1)⟩]

def out0_4 (x0 : Vec F S1x256x1024 .f32) (x1 : Vec F S3072x1024 .bf16) : Vec F S1x256x1024 .bf16 :=
  View.canon [⟨r0_0, k0_pay4 (View.ld x0 r0_0) (View.ld x1 r0_1)⟩]

theorem cover0_piece (p0 : Vec F S1x256x1024 .bf16) (y : S1x256x1024.Idx) :
    ∃ pc ∈ ([⟨r0_0, p0⟩] : List (View.Piece (Elt F) S1x256x1024 .bf16)), y ∈ pc.1.set :=
  View.cover_of_tiled [⟨r0_0, p0⟩] S1x256x1024.size (by rfl) y

set_option maxHeartbeats 1000000 in

theorem sound_kernel0 (c : Dev nD) (E : Set ℕ) (i : grid0.Coords)
    (arg2 : Memref sig .tc .vmem S1x256x1024 .f32) (harg2 : arg2.IsWhole) (arg3 : Memref sig .tc .vmem S3072x1024 .bf16) (harg3 : arg3.IsWhole)
    (arg4 : Memref sig .tc .vmem S1x256x1024 .bf16) (harg4 : arg4.IsWhole) (arg5 : Memref sig .tc .vmem S1x256x1024 .bf16) (harg5 : arg5.IsWhole)
    (arg6 : Memref sig .tc .vmem S1x256x1024 .bf16) (harg6 : arg6.IsWhole)
    (x0 : Vec F S1x256x1024 .f32) (x1 : Vec F S3072x1024 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_proj_kernel i arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_piece _)
  isplitl [H3]
  · iexists _; isplitr
    swap; · iexact H3
    ipureintro
    exact View.read_writes_eq_canon _ _ _ (cover0_piece _)
  iexists _; isplitr
  swap; · iexact H4
  ipureintro
  exact View.read_writes_eq_canon _ _ _ (cover0_piece _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1Shared.lean ====
import proofs.«411452_j50508815401447_3_alg».proof.Proof.Gen.Kernel.Launch
import proofs.«411452_j50508815401447_3_alg».proof.Proof.Gen.Kernel.Skeleton
import proofs.«411452_j50508815401447_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel

theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel

theorem liveAt1_5_C : ∀ t : Fin cfg1.N, ¬cond1_0 (grid1.coords t) → cond1_1 (grid1.coords t) → cfg1.idle 5 (grid1.coords t) = false := by decide +kernel

abbrev VO1_5 : View sig .tc .vmem S1x512x1024 .f32 := (Memref.whole cc1_stg5_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)

abbrev scM1_0 : Memref sig .tc .vmem S512x16x1 .f32 := Memref.whole cc1_scratch0
abbrev VS1_0 : View sig .tc .vmem S512x16x1 .f32 := scM1_0.view
abbrev scM1_1 : Memref sig .tc .vmem S512x16x1 .f32 := Memref.whole cc1_scratch1
abbrev VS1_1 : View sig .tc .vmem S512x16x1 .f32 := scM1_1.view
abbrev scM1_2 : Memref sig .tc .vmem S512x16x64 .f32 := Memref.whole cc1_scratch2
abbrev VS1_2 : View sig .tc .vmem S512x16x64 .f32 := scM1_2.view
abbrev scM1_3 : Memref sig .tc .vmem S512x1024 .bf16 := Memref.whole cc1_scratch3
abbrev VS1_3 : View sig .tc .vmem S512x1024 .bf16 := scM1_3.view

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Hand

end
-- ==== Proof.KB.R1RunA.lean ====
import proofs.«411452_j50508815401447_3_alg».proof.Proof.KB.R1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole) (hc0 : cond1_0 i) (hc1 : ¬cond1_1 i)
    (x0 : Vec F S1x512x1024 .bf16) (x1 : Vec F S1x2048x1024 .bf16) (x2 : Vec F S1x2048x1024 .bf16) (x3 : Vec F S1024x1024 .bf16) (x4 : Vec F S1024 .f32) :
    Σ' (L5 : List (View.Piece (Elt F) S1x512x1024 .f32)) (LS0 : List (View.Piece (Elt F) S512x16x1 .f32)) (LS1 : List (View.Piece (Elt F) S512x16x1 .f32)) (LS2 : List (View.Piece (Elt F) S512x16x64 .f32)), { LS3 : List (View.Piece (Elt F) S512x1024 .bf16) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__attn_out_kernel i arg3 harg3 arg4 harg4 arg5 harg5 arg6 harg6 arg7 harg7 arg8 harg8 arg9 harg9 arg10 harg10 arg11 harg11 arg12 harg12) K } := by
  refine ⟨[], ?_, ?_, ?_, ?_, fun xi5 E K => ?run⟩
  case run =>
    simp only [cc1__attn_out_kernel_eq_skeleton]; unfold cc1__attn_out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; iexact HS3

end Cert.Kernel.Hand

end
-- ==== Proof.KB.R1RunB.lean ====
import proofs.«411452_j50508815401447_3_alg».proof.Proof.KB.R1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole) (hc0 : ¬cond1_0 i) (hc1 : ¬cond1_1 i)
    (x0 : Vec F S1x512x1024 .bf16) (x1 : Vec F S1x2048x1024 .bf16) (x2 : Vec F S1x2048x1024 .bf16) (x3 : Vec F S1024x1024 .bf16) (x4 : Vec F S1024 .f32)
    (xs0 : Vec F S512x16x1 .f32) (xs1 : Vec F S512x16x1 .f32) (xs2 : Vec F S512x16x64 .f32) (xs3 : Vec F S512x1024 .bf16) :
    Σ' (L5 : List (View.Piece (Elt F) S1x512x1024 .f32)) (LS0 : List (View.Piece (Elt F) S512x16x1 .f32)) (LS1 : List (View.Piece (Elt F) S512x16x1 .f32)) (LS2 : List (View.Piece (Elt F) S512x16x64 .f32)), { LS3 : List (View.Piece (Elt F) S512x1024 .bf16) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__attn_out_kernel i arg3 harg3 arg4 harg4 arg5 harg5 arg6 harg6 arg7 harg7 arg8 harg8 arg9 harg9 arg10 harg10 arg11 harg11 arg12 harg12) K } := by
  refine ⟨[], ?_, ?_, ?_, [], fun xi5 E K => ?run⟩
  case run =>
    simp only [cc1__attn_out_kernel_eq_skeleton]; unfold cc1__attn_out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; isplitr; · ipureintro; exact harg12.read_unread _
    iexact HS3

end Cert.Kernel.Hand

end
-- ==== Proof.KB.R1RunC.lean ====
import proofs.«411452_j50508815401447_3_alg».proof.Proof.KB.R1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole) (hc0 : ¬cond1_0 i) (hc1 : cond1_1 i)
    (x0 : Vec F S1x512x1024 .bf16) (x1 : Vec F S1x2048x1024 .bf16) (x2 : Vec F S1x2048x1024 .bf16) (x3 : Vec F S1024x1024 .bf16) (x4 : Vec F S1024 .f32)
    (xs0 : Vec F S512x16x1 .f32) (xs1 : Vec F S512x16x1 .f32) (xs2 : Vec F S512x16x64 .f32) (xs3 : Vec F S512x1024 .bf16) :
    Σ' (L5 : List (View.Piece (Elt F) S1x512x1024 .f32)) (LS0 : List (View.Piece (Elt F) S512x16x1 .f32)) (LS1 : List (View.Piece (Elt F) S512x16x1 .f32)) (LS2 : List (View.Piece (Elt F) S512x16x64 .f32)), { LS3 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__attn_out_kernel i arg3 harg3 arg4 harg4 arg5 harg5 arg6 harg6 arg7 harg7 arg8 harg8 arg9 harg9 arg10 harg10 arg11 harg11 arg12 harg12) K } := by
  refine ⟨?_, ?_, ?_, ?_, [], fun E K => ?run⟩
  case run =>
    simp only [cc1__attn_out_kernel_eq_skeleton]; unfold cc1__attn_out_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    isplitl [HS2]; · iexists _; iexact HS2
    iexists _; isplitr; · ipureintro; exact harg12.read_unread _
    iexact HS3

end Cert.Kernel.Hand

end
-- ==== Proof.KB.R1.lean ====
import proofs.«411452_j50508815401447_3_alg».proof.Proof.KB.R1RunA
import proofs.«411452_j50508815401447_3_alg».proof.Proof.KB.R1RunB
import proofs.«411452_j50508815401447_3_alg».proof.Proof.KB.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def sout1_B_3 (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole) (hc0 : ¬cond1_0 i) (hc1 : ¬cond1_1 i)
    (x0 : Vec F S1x512x1024 .bf16) (x1 : Vec F S1x2048x1024 .bf16) (x2 : Vec F S1x2048x1024 .bf16) (x3 : Vec F S1024x1024 .bf16) (x4 : Vec F S1024 .f32) (xs0 : Vec F S512x16x1 .f32) (xs1 : Vec F S512x16x1 .f32) (xs2 : Vec F S512x16x64 .f32) (xs3 : Vec F S512x1024 .bf16) : Vec F S512x1024 .bf16 := xs3

def sout1_C_3 (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole) (hc0 : ¬cond1_0 i) (hc1 : cond1_1 i)
    (x0 : Vec F S1x512x1024 .bf16) (x1 : Vec F S1x2048x1024 .bf16) (x2 : Vec F S1x2048x1024 .bf16) (x3 : Vec F S1024x1024 .bf16) (x4 : Vec F S1024 .f32) (xs0 : Vec F S512x16x1 .f32) (xs1 : Vec F S512x16x1 .f32) (xs2 : Vec F S512x16x64 .f32) (xs3 : Vec F S512x1024 .bf16) : Vec F S512x1024 .bf16 := xs3

section
variable (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole)

section
variable (hc0 : cond1_0 i) (hc1 : ¬cond1_1 i)
    (x0 : Vec F S1x512x1024 .bf16) (x1 : Vec F S1x2048x1024 .bf16) (x2 : Vec F S1x2048x1024 .bf16) (x3 : Vec F S1024x1024 .bf16) (x4 : Vec F S1024 .f32)

def out1_A_5 : Vec F S1x512x1024 .f32 :=
  VO1_5.read (Elt F) (VO1_5.writes (Elt F) VO1_5.junk (kernelRun1_A c i arg3 harg3 arg4 harg4 arg5 harg5 arg6 harg6 arg7 harg7 arg8 harg8 arg9 harg9 arg10 harg10 arg11 harg11 arg12 harg12 hc0 hc1 x0 x1 x2 x3 x4).1)

theorem scover1_A_0 (y : S512x16x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL _ S512x16x1.size (by sl_kernel_rfl) y

def sout1_A_0 : Vec F S512x16x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4).2.1)

theorem scover1_A_1 (y : S512x16x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL _ S512x16x1.size (by sl_kernel_rfl) y

def sout1_A_1 : Vec F S512x16x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 x0 x1 x2 x3 x4).2.2.1)

theorem scover1_A_2 (y : S512x16x64.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.2.1, y ∈ pc.1.set :=
  View.cover_of_tiledL _ S512x16x64.size (by sl_kernel_rfl) y

def sout1_A_2 : Vec F S512x16x64 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 hc0 hc1 x0 x1 x2 x3 x4).2.2.2.1)

theorem scover1_A_3 (y : S512x1024.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.2.2.1, y ∈ pc.1.set :=
  View.cover_of_tiledL _ S512x1024.size (by sl_kernel_rfl) y

def sout1_A_3 : Vec F S512x1024 .bf16 :=
  VS1_3.read (Elt F) (VS1_3.writes (Elt F) VS1_3.junk (kernelRun1_A c i arg3 harg3 arg4 harg4 arg5 harg5 arg6 harg6 arg7 harg7 arg8 harg8 arg9 harg9 arg10 harg10 arg11 harg11 arg12 harg12 hc0 hc1 x0 x1 x2 x3 x4).2.2.2.2.1)

def outs1_A : Vec F S1x512x1024 .f32 × Vec F S512x16x1 .f32 × Vec F S512x16x1 .f32 × Vec F S512x16x64 .f32 × Vec F S512x1024 .bf16 :=
  (out1_A_5 c i arg3 harg3 arg4 harg4 arg5 harg5 arg6 harg6 arg7 harg7 arg8 harg8 arg9 harg9 arg10 harg10 arg11 harg11 arg12 harg12 hc0 hc1 x0 x1 x2 x3 x4, sout1_A_0 c i arg3 harg3 arg4 harg4 arg5 harg5 arg6 harg6 arg7 harg7 arg8 harg8 arg9 harg9 arg10 harg10 arg11 harg11 arg12 harg12 hc0 hc1 x0 x1 x2 x3 x4, sout1_A_1 c i arg3 harg3 arg4 harg4 arg5 harg5 arg6 harg6 arg7 harg7 arg8 harg8 arg9 harg9 arg10 harg10 arg11 harg11 arg12 harg12 hc0 hc1 x0 x1 x2 x3 x4, sout1_A_2 c i arg3 harg3 arg4 harg4 arg5 harg5 arg6 harg6 arg7 harg7 arg8 harg8 arg9 harg9 arg10 harg10 arg11 harg11 arg12 harg12 hc0 hc1 x0 x1 x2 x3 x4, sout1_A_3 c i arg3 harg3 arg4 harg4 arg5 harg5 arg6 harg6 arg7 harg7 arg8 harg8 arg9 harg9 arg10 harg10 arg11 harg11 arg12 harg12 hc0 hc1 x0 x1 x2 x3 x4)

end

section
variable (hc0 : ¬cond1_0 i) (hc1 : ¬cond1_1 i)
    (x0 : Vec F S1x512x1024 .bf16) (x1 : Vec F S1x2048x1024 .bf16) (x2 : Vec F S1x2048x1024 .bf16) (x3 : Vec F S1024x1024 .bf16) (x4 : Vec F S1024 .f32) (xs0 : Vec F S512x16x1 .f32) (xs1 : Vec F S512x16x1 .f32) (xs2 : Vec F S512x16x64 .f32) (xs3 : Vec F S512x1024 .bf16)

def out1_B_5 : Vec F S1x512x1024 .f32 :=
  VO1_5.read (Elt F) (VO1_5.writes (Elt F) VO1_5.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).1)

theorem scover1_B_0 (y : S512x16x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.1, y ∈ pc.1.set :=
  View.cover_of_tiledL (s := S512x16x1) _ S512x1x1.size (by sl_kernel_rfl) y

def sout1_B_0 : Vec F S512x16x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.1)

theorem scover1_B_1 (y : S512x16x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (s := S512x16x1) _ S512x1x1.size (by sl_kernel_rfl) y

def sout1_B_1 : Vec F S512x16x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

theorem scover1_B_2 (y : S512x16x64.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (s := S512x16x64) _ S512x1x64.size (by sl_kernel_rfl) y

def sout1_B_2 : Vec F S512x16x64 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

def outs1_B : Vec F S1x512x1024 .f32 × Vec F S512x16x1 .f32 × Vec F S512x16x1 .f32 × Vec F S512x16x64 .f32 × Vec F S512x1024 .bf16 :=
  (out1_B_5 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_B_0 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_B_1 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_B_2 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_B_3 c i arg3 harg3 arg4 harg4 arg5 harg5 arg6 harg6 arg7 harg7 arg8 harg8 arg9 harg9 arg10 harg10 arg11 harg11 arg12 harg12 hc0 hc1 x0 x1 x2 x3 x4 xs0 xs1 xs2 xs3)

end

section
variable (hc0 : ¬cond1_0 i) (hc1 : cond1_1 i)
    (x0 : Vec F S1x512x1024 .bf16) (x1 : Vec F S1x2048x1024 .bf16) (x2 : Vec F S1x2048x1024 .bf16) (x3 : Vec F S1024x1024 .bf16) (x4 : Vec F S1024 .f32) (xs0 : Vec F S512x16x1 .f32) (xs1 : Vec F S512x16x1 .f32) (xs2 : Vec F S512x16x64 .f32) (xs3 : Vec F S512x1024 .bf16)

theorem cover1_C_5 (y : S1x512x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1, y ∈ pc.1.set :=
  View.cover_of_tiledL _ S1x512x1024.size (by sl_kernel_rfl) y

def out1_C_5 : Vec F S1x512x1024 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1)

theorem scover1_C_0 (y : S512x16x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.1, y ∈ pc.1.set :=
  View.cover_of_tiledL (s := S512x16x1) _ S512x1x1.size (by sl_kernel_rfl) y

def sout1_C_0 : Vec F S512x16x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.1)

theorem scover1_C_1 (y : S512x16x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (s := S512x16x1) _ S512x1x1.size (by sl_kernel_rfl) y

def sout1_C_1 : Vec F S512x16x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

theorem scover1_C_2 (y : S512x16x64.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (s := S512x16x64) _ S512x1x64.size (by sl_kernel_rfl) y

def sout1_C_2 : Vec F S512x16x64 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

def outs1_C : Vec F S1x512x1024 .f32 × Vec F S512x16x1 .f32 × Vec F S512x16x1 .f32 × Vec F S512x16x64 .f32 × Vec F S512x1024 .bf16 :=
  (out1_C_5 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_C_0 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_C_1 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_C_2 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_C_3 c i arg3 harg3 arg4 harg4 arg5 harg5 arg6 harg6 arg7 harg7 arg8 harg8 arg9 harg9 arg10 harg10 arg11 harg11 arg12 harg12 hc0 hc1 x0 x1 x2 x3 x4 xs0 xs1 xs2 xs3)

end

end

variable (V : (c : Dev nD) → (b : Ref sig .tc) → Buf (Elt F) ((c : Thread nD τ).loc b))

def outsAt1 (c : Dev nD) : (n : ℕ) → n < cfg1.N → Vec F S1x512x1024 .f32 × Vec F S512x16x1 .f32 × Vec F S512x16x1 .f32 × Vec F S512x16x64 .f32 × Vec F S512x1024 .bf16
  | 0, hn =>
    outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 8 = 0 then
      if h1 : (n + 1) % 8 = 7 then
        False.elim (by omega)
      else
        outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 8 = 7 then
        outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2
      else
        outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2

theorem outsAt1_A (c : Dev nD) (t : Fin cfg1.N) (h0 : t.val % 8 = 0) (h1 : ¬t.val % 8 = 7) :
    outsAt1 V c t.val t.isLt = outs1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = outs1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = outs1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

def PhiAt1 (c : Dev nD) (o : Vec F S1x512x1024 .f32 × Vec F S512x16x1 .f32 × Vec F S512x16x1 .f32 × Vec F S512x16x64 .f32 × Vec F S512x1024 .bf16) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare o.2.1 ∗ owns (c : Thread nD τ) scM1_1 fullShare o.2.2.1 ∗ owns (c : Thread nD τ) scM1_2 fullShare o.2.2.2.1 ∗ owns (c : Thread nD τ) scM1_3 fullShare o.2.2.2.2) ∗ (∃ r, prngReg c r))

def PhiS1 (c : Dev nD) : (n : ℕ) → n ≤ cfg1.N → sProp 𝕄
  | 0, _ => Pipeline.ΦA spec1 c
  | n + 1, hn => PhiAt1 c (outsAt1 V c n hn)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) : PhiS1 V c (n + 1) hn = PhiAt1 c (outsAt1 V c n hn) := rfl

theorem PhiS1_pos (c : Dev nD) (n : ℕ) (h : n ≤ cfg1.N) (hz : n ≠ 0) :
    PhiS1 V c n h = PhiAt1 c (outsAt1 V c (n - 1) (by omega)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

private theorem owns_of_cover {c : Dev nD} {s : Shape} {e : EltTy} {κ' : Kind} {sp' : Space} (v' : View sig κ' sp' s e)
    (M : Memref sig .tc .vmem s e) (g : Buf (Elt F) (M.view.loc (c : Thread nD τ))) (L : List (View.Piece (Elt F) s e))
    (h : ∀ y, ∃ pc ∈ L, y ∈ pc.1.set) :
    (M.view.loc (c : Thread nD τ) ↦[M.view.set]{fullShare} M.view.writes (Elt F) g L : sProp 𝕄)
      ⊢ owns (c : Thread nD τ) M fullShare (v'.read (Elt F) (v'.writes (Elt F) v'.junk L)) := by
  iintro H; unfold owns; iexists M.view.writes (Elt F) g L; isplitr
  · ipureintro; exact View.read_writes_of_cover _ _ _ _ _ h
  · iexact H

private theorem leavesExact_live {c : Dev nD} (dat : Dat τ (Elt F) Unit ℕ (UR sig nD τ) ℕ cfg1 c) (w : Fin cfg1.W) (t : Fin cfg1.N)
    (h : cfg1.idle w (grid1.coords t) = false) :
    dat.leavesExact w t = owns (c : Thread nD τ) ((cfg1.win w).stage (cfg1.slots t w)) fullShare (dat.after w t) := by
  unfold Dat.leavesExact; rw [h]

theorem PhiS1_some (c : Dev nD) (n : ℕ) (h : n ≤ cfg1.N) : PhiS1 V c n h ⊢ Pipeline.ΦA spec1 c := by
  cases n with
  | zero => exact Entails.refl _
  | succ n =>
    rw [PhiS1_succ, PhiA1_eq]; unfold PhiAt1
    iintro ⟨⟨Hs0, Hs1, Hs2, Hs3, Hs4, Hs5, Hs6, Hs7, Hs8, HS0, HS1, HS2, HS3⟩, Hg⟩
    iframe Hs0 Hs1 Hs2 Hs3 Hs4 Hs5 Hs6 Hs7 Hs8 Hg
    isplitl [HS0]; · iexists _; iexact HS0
    isplitl [HS1]; · iexists _; iexact HS1
    isplitl [HS2]; · iexists _; iexact HS2
    iexists _; iexact HS3

set_option maxHeartbeats 2400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    show (dat1 V c).Φ t.succ = PhiS1 V c (t.val + 1) t.isLt from rfl, PhiS1_succ, PhiS1_castSucc,
    leavesExact_live _ 0 t (liveAt1_0 t), after1_0, leavesExact_live _ 1 t (liveAt1_1 t), after1_1,
    leavesExact_live _ 2 t (liveAt1_2 t), after1_2, leavesExact_live _ 3 t (liveAt1_3 t), after1_3,
    leavesExact_live _ 4 t (liveAt1_4 t), after1_4]
  by_cases h0 : t.val % 8 = 0
  · have h1 : ¬t.val % 8 = 7 := by omega
    have hc0 := (hcond1_0 t).mpr h0
    have hc1 : ¬cond1_1 (grid1.coords t) := fun h => h1 ((hcond1_1 t).mp h)
    rw [Dat.leavesExact_idle _ 5 t (idleAt1_5_A t hc0 hc1) (noFlush1_5_A t hc0 hc1), outsAt1_A V c t h0 h1]
    unfold PhiAt1 outs1_A sout1_A_0 sout1_A_1 sout1_A_2 sout1_A_3; dsimp only
    refine (sep_mono_left (PhiS1_some V c _ _)).trans ?_
    rw [PhiA1_eq]
    iintro ⟨⟨⟨Hs0, Hs1, Hs2, Hs3, Hs4, Hs5, Hs6, Hs7, Hs8, HS0, HS1, HS2, HS3⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t)).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, ⟨%es0, HS0⟩, ⟨%es1, HS1⟩, ⟨%es2, HS2⟩, ⟨%es3, HS3⟩⟩
    iframe Hs0 Hs1 Hs2 Hs3 Hs4 Hs5 Hs6 Hs7 Hs8 Hg Ho
    isplitl [HS0 HS1 HS2 HS3]
    · isplitl [HS0]; · iapply owns_of_cover _ _ _ _ (fun y => scover1_A_0 (y := y) ..) $$ HS0
      isplitl [HS1]; · iapply owns_of_cover _ _ _ _ (fun y => scover1_A_1 (y := y) ..) $$ HS1
      isplitl [HS2]; · iapply owns_of_cover _ _ _ _ (fun y => scover1_A_2 (y := y) ..) $$ HS2
      iapply owns_of_cover _ _ _ _ (fun y => scover1_A_3 (y := y) ..) $$ HS3
    isplitl [H0]; · iexact H0
    isplitl [H1]; · iexact H1
    isplitl [H2]; · iexact H2
    isplitl [H3]; · iexact H3
    isplitl [H4]; · iexact H4
    iexists _; iexact H5
  · have hc0 : ¬cond1_0 (grid1.coords t) := fun h => h0 ((hcond1_0 t).mp h)
    rw [PhiS1_pos V c _ _ (by omega)]
    by_cases h1 : t.val % 8 = 7
    · have hc1 := (hcond1_1 t).mpr h1
      rw [leavesExact_live _ 5 t (liveAt1_5_C t hc0 hc1), after1_5, outsAt1_C V c t h0 h1]
      unfold PhiAt1 outs1_C out1_C_5 sout1_C_0 sout1_C_1 sout1_C_2 sout1_C_3; dsimp only
      iintro ⟨⟨⟨Hs0, Hs1, Hs2, Hs3, Hs4, Hs5, Hs6, Hs7, Hs8, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%es0, HS0⟩, ⟨%es1, HS1⟩, ⟨%es2, HS2⟩, HS3⟩
      iframe Hs0 Hs1 Hs2 Hs3 Hs4 Hs5 Hs6 Hs7 Hs8 Hg Ho
      isplitl [HS0 HS1 HS2 HS3]
      · isplitl [HS0]; · iapply owns_of_cover _ _ _ _ (fun y => scover1_C_0 (y := y) ..) $$ HS0
        isplitl [HS1]; · iapply owns_of_cover _ _ _ _ (fun y => scover1_C_1 (y := y) ..) $$ HS1
        isplitl [HS2]; · iapply owns_of_cover _ _ _ _ (fun y => scover1_C_2 (y := y) ..) $$ HS2
        iexact HS3
      isplitl [H0]; · iexact H0
      isplitl [H1]; · iexact H1
      isplitl [H2]; · iexact H2
      isplitl [H3]; · iexact H3
      isplitl [H4]; · iexact H4
      iapply owns_of_cover _ _ _ _ (fun y => cover1_C_5 (y := y) ..) $$ H5
    · have hc1 : ¬cond1_1 (grid1.coords t) := fun h => h1 ((hcond1_1 t).mp h)
      rw [Dat.leavesExact_idle _ 5 t (idleAt1_5_B t hc0 hc1) (noFlush1_5_B t hc0 hc1), outsAt1_B V c t h0 h1]
      unfold PhiAt1 outs1_B sout1_B_0 sout1_B_1 sout1_B_2 sout1_B_3; dsimp only
      iintro ⟨⟨⟨Hs0, Hs1, Hs2, Hs3, Hs4, Hs5, Hs6, Hs7, Hs8, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ _ _).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, HS3⟩
      iframe Hs0 Hs1 Hs2 Hs3 Hs4 Hs5 Hs6 Hs7 Hs8 Hg Ho
      isplitl [HS0 HS1 HS2 HS3]
      · isplitl [HS0]; · iapply owns_of_cover _ _ _ _ (fun y => scover1_B_0 (y := y) ..) $$ HS0
        isplitl [HS1]; · iapply owns_of_cover _ _ _ _ (fun y => scover1_B_1 (y := y) ..) $$ HS1
        isplitl [HS2]; · iapply owns_of_cover _ _ _ _ (fun y => scover1_B_2 (y := y) ..) $$ HS2
        iexact HS3
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 :=
  Entails.refl _

theorem Phi_out1 (c : Dev nD) (t : Fin (cfg1.N + 1)) (ht : t.val ≠ 0) : (dat1 V c).Φ t ⊢ Pipeline.ΦA spec1 c :=
  PhiS1_some V c _ _

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.KB.Launch.lean ====
import proofs.«411452_j50508815401447_3_alg».proof.Proof.KB.Vals
import proofs.«411452_j50508815401447_3_alg».proof.Proof.KB.R0
import proofs.«411452_j50508815401447_3_alg».proof.Proof.KB.R1
import proofs.«411452_j50508815401447_3_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

theorem W3_main_arg0 (c : Dev nD) : W3 m ρ c (Proc.devRef .tc main_arg0) = m ((c : Thread nD τ).loc main_arg0) :=
  (W3_of_ne m ρ c main_arg0 (by decide)).trans <| (W2_arr m ρ c 0).trans <|
    ((dat0 (V1 m ρ) c).arrAt_in 0 rfl _).trans <| (A_eq0 (V1 m ρ) c 0).trans (W1_of m ρ c main_arg0 (by decide))
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans (W1_of m ρ c main_arg1 (by decide))
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans (W1_of m ρ c main_arg2 (by decide))
theorem W3_main_arg3 (c : Dev nD) : W3 m ρ c (Proc.devRef .tc main_arg3) = m ((c : Thread nD τ).loc main_arg3) :=
  (W3_arr m ρ c 4).trans <| ((dat1 (V2 m ρ) c).arrAt_in 4 rfl _).trans <| (A_eq1 (V2 m ρ) c 4).trans <|
    (W2_of_ne m ρ c main_arg3 (by decide)).trans (W1_of m ρ c main_arg3 (by decide))

abbrev adm' : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

theorem toΦA {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) win c)
      ⊢ (Pipeline.ΦA win c : sProp 𝕄) := by
  unfold Pipeline.ΦA
  iintro ⟨Hp, -, Hr⟩
  isplitl [Hr]; · iexact Hr
  iexact Hp

theorem ofΦA {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) win c) := by
  unfold Pipeline.ΦA
  iintro ⟨Hr, Hp⟩
  isplitl [Hp]; · iexact Hp
  isplitr; · iempintro
  iexact Hr

set_option backward.isDefEq.respectTransparency.types false in

def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := toΦA spec0 c _
  hout c := by
    rw [Pipeline.ownSems0_none]
    exact ofΦA spec0 c
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm)
      fun b hb => W2_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA spec1 c _).trans (hin1 (V2 m ρ) c)
  hout c := by
    rw [Pipeline.ownSems0_none]
    exact (hout1 (V2 m ρ) c).trans (ofΦA spec1 c)
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V2 m ρ c) (fun b => W3 m ρ c b) ((pdats m ρ 1 c).arrAt · cfg1.N) (fun w => (W3_arr m ρ c w).symm)
      fun b hb => W3_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm' (pdats m ρ) () defs₀ 𝒱₀ L lv) :=
  [ .host (Pipeline.HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (W0 m ρ) R),
    .region (reg0 m ρ),
    .region (reg1 m ρ) ]
theorem main_run (c : Dev nD) : main (F := F) c = Pipeline.Seg.run (segs m ρ) := (main_chain c).trans (by chain_rfl)

set_option backward.isDefEq.respectTransparency.types false in

theorem run_main : θ_run defs (onTc (τ := τ) (main (F := F))) ⟨m, fun _ => 0, ρ⟩ (fun r => ∀ c : Dev nD,
      r.2.mem ((c.tc : Thread nD τ).loc main_v6) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v6 (by decide))).trans (W3_arr m ρ c 5),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.Kernel.Hand

end
-- ==== Proof.KI.Vals.lean ====
import proofs.«411452_j50508815401447_3_alg».proof.Proof.Gen.KernelIdeal.Launch
import proofs.«411452_j50508815401447_3_alg».proof.Proof.Gen.KernelIdeal.Regions
import Idealize.ShloMosaic.Lib.Pipeline.FrameBody
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

end Cert.KernelIdeal.Hand

end
-- ==== Proof.KI.R0.lean ====
import proofs.«411452_j50508815401447_3_alg».proof.Proof.Gen.KernelIdeal.Launch
import proofs.«411452_j50508815401447_3_alg».proof.Proof.Gen.KernelIdeal.Skeleton
import proofs.«411452_j50508815401447_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1x256x1024 := Rect.unit (s := S1x256x1024) ![0, 0, 0] S1x256x1024.size inb_S1x256x1024_S1x256x1024_0_0_0

abbrev r0_1 : Rect S3072x1024 := Rect.unit (s := S3072x1024) ![0, 0] S3072x1024.size inb_S3072x1024_S3072x1024_0_0

def out0_2 (x0 : Vec F S1x256x1024 .f32) (x1 : Vec F S3072x1024 .bf16) : Vec F S1x256x1024 .bf16 :=
  View.canon [⟨r0_0, k0_pay2 (View.ld x0 r0_0) (View.ld x1 r0_1)⟩]

def out0_3 (x0 : Vec F S1x256x1024 .f32) (x1 : Vec F S3072x1024 .bf16) : Vec F S1x256x1024 .bf16 :=
  View.canon [⟨r0_0, k0_pay3 (View.ld x0 r0_0) (View.ld x1 r0_1)⟩]

def out0_4 (x0 : Vec F S1x256x1024 .f32) (x1 : Vec F S3072x1024 .bf16) : Vec F S1x256x1024 .bf16 :=
  View.canon [⟨r0_0, k0_pay4 (View.ld x0 r0_0) (View.ld x1 r0_1)⟩]

theorem cover0_piece (p0 : Vec F S1x256x1024 .bf16) (y : S1x256x1024.Idx) :
    ∃ pc ∈ ([⟨r0_0, p0⟩] : List (View.Piece (Elt F) S1x256x1024 .bf16)), y ∈ pc.1.set :=
  View.cover_of_tiled [⟨r0_0, p0⟩] S1x256x1024.size (by rfl) y

set_option maxHeartbeats 1000000 in

theorem sound_kernel0 (c : Dev nD) (E : Set ℕ) (i : grid0.Coords)
    (arg2 : Memref sig .tc .vmem S1x256x1024 .f32) (harg2 : arg2.IsWhole) (arg3 : Memref sig .tc .vmem S3072x1024 .bf16) (harg3 : arg3.IsWhole)
    (arg4 : Memref sig .tc .vmem S1x256x1024 .bf16) (harg4 : arg4.IsWhole) (arg5 : Memref sig .tc .vmem S1x256x1024 .bf16) (harg5 : arg5.IsWhole)
    (arg6 : Memref sig .tc .vmem S1x256x1024 .bf16) (harg6 : arg6.IsWhole)
    (x0 : Vec F S1x256x1024 .f32) (x1 : Vec F S3072x1024 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__qkv_proj_kernel i arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_piece _)
  isplitl [H3]
  · iexists _; isplitr
    swap; · iexact H3
    ipureintro
    exact View.read_writes_eq_canon _ _ _ (cover0_piece _)
  iexists _; isplitr
  swap; · iexact H4
  ipureintro
  exact View.read_writes_eq_canon _ _ _ (cover0_piece _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Shared.lean ====
import proofs.«411452_j50508815401447_3_alg».proof.Proof.Gen.KernelIdeal.Launch
import proofs.«411452_j50508815401447_3_alg».proof.Proof.Gen.KernelIdeal.Skeleton
import proofs.«411452_j50508815401447_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel

theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel

theorem liveAt1_5_C : ∀ t : Fin cfg1.N, ¬cond1_0 (grid1.coords t) → cond1_1 (grid1.coords t) → cfg1.idle 5 (grid1.coords t) = false := by decide +kernel

abbrev VO1_5 : View sig .tc .vmem S1x512x1024 .f32 := (Memref.whole cc1_stg5_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)

abbrev scM1_0 : Memref sig .tc .vmem S512x16x1 .f32 := Memref.whole cc1_scratch0
abbrev VS1_0 : View sig .tc .vmem S512x16x1 .f32 := scM1_0.view
abbrev scM1_1 : Memref sig .tc .vmem S512x16x1 .f32 := Memref.whole cc1_scratch1
abbrev VS1_1 : View sig .tc .vmem S512x16x1 .f32 := scM1_1.view
abbrev scM1_2 : Memref sig .tc .vmem S512x16x64 .f32 := Memref.whole cc1_scratch2
abbrev VS1_2 : View sig .tc .vmem S512x16x64 .f32 := scM1_2.view
abbrev scM1_3 : Memref sig .tc .vmem S512x1024 .bf16 := Memref.whole cc1_scratch3
abbrev VS1_3 : View sig .tc .vmem S512x1024 .bf16 := scM1_3.view

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Hand

end
-- ==== Proof.KI.R1RunA.lean ====
import proofs.«411452_j50508815401447_3_alg».proof.Proof.KI.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole) (hc0 : cond1_0 i) (hc1 : ¬cond1_1 i)
    (x0 : Vec F S1x512x1024 .bf16) (x1 : Vec F S1x2048x1024 .bf16) (x2 : Vec F S1x2048x1024 .bf16) (x3 : Vec F S1024x1024 .bf16) (x4 : Vec F S1024 .f32) :
    Σ' (L5 : List (View.Piece (Elt F) S1x512x1024 .f32)) (LS0 : List (View.Piece (Elt F) S512x16x1 .f32)) (LS1 : List (View.Piece (Elt F) S512x16x1 .f32)) (LS2 : List (View.Piece (Elt F) S512x16x64 .f32)), { LS3 : List (View.Piece (Elt F) S512x1024 .bf16) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__attn_out_kernel i arg3 harg3 arg4 harg4 arg5 harg5 arg6 harg6 arg7 harg7 arg8 harg8 arg9 harg9 arg10 harg10 arg11 harg11 arg12 harg12) K } := by
  refine ⟨[], ?_, ?_, ?_, ?_, fun xi5 E K => ?run⟩
  case run =>
    simp only [cc1__attn_out_kernel_eq_skeleton]; unfold cc1__attn_out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; iexact HS3

end Cert.KernelIdeal.Hand

end
-- ==== Proof.KI.R1RunB.lean ====
import proofs.«411452_j50508815401447_3_alg».proof.Proof.KI.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole) (hc0 : ¬cond1_0 i) (hc1 : ¬cond1_1 i)
    (x0 : Vec F S1x512x1024 .bf16) (x1 : Vec F S1x2048x1024 .bf16) (x2 : Vec F S1x2048x1024 .bf16) (x3 : Vec F S1024x1024 .bf16) (x4 : Vec F S1024 .f32)
    (xs0 : Vec F S512x16x1 .f32) (xs1 : Vec F S512x16x1 .f32) (xs2 : Vec F S512x16x64 .f32) (xs3 : Vec F S512x1024 .bf16) :
    Σ' (L5 : List (View.Piece (Elt F) S1x512x1024 .f32)) (LS0 : List (View.Piece (Elt F) S512x16x1 .f32)) (LS1 : List (View.Piece (Elt F) S512x16x1 .f32)) (LS2 : List (View.Piece (Elt F) S512x16x64 .f32)), { LS3 : List (View.Piece (Elt F) S512x1024 .bf16) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__attn_out_kernel i arg3 harg3 arg4 harg4 arg5 harg5 arg6 harg6 arg7 harg7 arg8 harg8 arg9 harg9 arg10 harg10 arg11 harg11 arg12 harg12) K } := by
  refine ⟨[], ?_, ?_, ?_, [], fun xi5 E K => ?run⟩
  case run =>
    simp only [cc1__attn_out_kernel_eq_skeleton]; unfold cc1__attn_out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; isplitr; · ipureintro; exact harg12.read_unread _
    iexact HS3

end Cert.KernelIdeal.Hand

end
-- ==== Proof.KI.R1RunC.lean ====
import proofs.«411452_j50508815401447_3_alg».proof.Proof.KI.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole) (hc0 : ¬cond1_0 i) (hc1 : cond1_1 i)
    (x0 : Vec F S1x512x1024 .bf16) (x1 : Vec F S1x2048x1024 .bf16) (x2 : Vec F S1x2048x1024 .bf16) (x3 : Vec F S1024x1024 .bf16) (x4 : Vec F S1024 .f32)
    (xs0 : Vec F S512x16x1 .f32) (xs1 : Vec F S512x16x1 .f32) (xs2 : Vec F S512x16x64 .f32) (xs3 : Vec F S512x1024 .bf16) :
    Σ' (L5 : List (View.Piece (Elt F) S1x512x1024 .f32)) (LS0 : List (View.Piece (Elt F) S512x16x1 .f32)) (LS1 : List (View.Piece (Elt F) S512x16x1 .f32)) (LS2 : List (View.Piece (Elt F) S512x16x64 .f32)), { LS3 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__attn_out_kernel i arg3 harg3 arg4 harg4 arg5 harg5 arg6 harg6 arg7 harg7 arg8 harg8 arg9 harg9 arg10 harg10 arg11 harg11 arg12 harg12) K } := by
  refine ⟨?_, ?_, ?_, ?_, [], fun E K => ?run⟩
  case run =>
    simp only [cc1__attn_out_kernel_eq_skeleton]; unfold cc1__attn_out_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    isplitl [HS2]; · iexists _; iexact HS2
    iexists _; isplitr; · ipureintro; exact harg12.read_unread _
    iexact HS3

end Cert.KernelIdeal.Hand

end
-- ==== Proof.KI.R1.lean ====
import proofs.«411452_j50508815401447_3_alg».proof.Proof.KI.R1RunA
import proofs.«411452_j50508815401447_3_alg».proof.Proof.KI.R1RunB
import proofs.«411452_j50508815401447_3_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def sout1_B_3 (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole) (hc0 : ¬cond1_0 i) (hc1 : ¬cond1_1 i)
    (x0 : Vec F S1x512x1024 .bf16) (x1 : Vec F S1x2048x1024 .bf16) (x2 : Vec F S1x2048x1024 .bf16) (x3 : Vec F S1024x1024 .bf16) (x4 : Vec F S1024 .f32) (xs0 : Vec F S512x16x1 .f32) (xs1 : Vec F S512x16x1 .f32) (xs2 : Vec F S512x16x64 .f32) (xs3 : Vec F S512x1024 .bf16) : Vec F S512x1024 .bf16 := xs3

def sout1_C_3 (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole) (hc0 : ¬cond1_0 i) (hc1 : cond1_1 i)
    (x0 : Vec F S1x512x1024 .bf16) (x1 : Vec F S1x2048x1024 .bf16) (x2 : Vec F S1x2048x1024 .bf16) (x3 : Vec F S1024x1024 .bf16) (x4 : Vec F S1024 .f32) (xs0 : Vec F S512x16x1 .f32) (xs1 : Vec F S512x16x1 .f32) (xs2 : Vec F S512x16x64 .f32) (xs3 : Vec F S512x1024 .bf16) : Vec F S512x1024 .bf16 := xs3

section
variable (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole)

section
variable (hc0 : cond1_0 i) (hc1 : ¬cond1_1 i)
    (x0 : Vec F S1x512x1024 .bf16) (x1 : Vec F S1x2048x1024 .bf16) (x2 : Vec F S1x2048x1024 .bf16) (x3 : Vec F S1024x1024 .bf16) (x4 : Vec F S1024 .f32)

def out1_A_5 : Vec F S1x512x1024 .f32 :=
  VO1_5.read (Elt F) (VO1_5.writes (Elt F) VO1_5.junk (kernelRun1_A c i arg3 harg3 arg4 harg4 arg5 harg5 arg6 harg6 arg7 harg7 arg8 harg8 arg9 harg9 arg10 harg10 arg11 harg11 arg12 harg12 hc0 hc1 x0 x1 x2 x3 x4).1)

theorem scover1_A_0 (y : S512x16x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL _ S512x16x1.size (by sl_kernel_rfl) y

def sout1_A_0 : Vec F S512x16x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4).2.1)

theorem scover1_A_1 (y : S512x16x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL _ S512x16x1.size (by sl_kernel_rfl) y

def sout1_A_1 : Vec F S512x16x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 x0 x1 x2 x3 x4).2.2.1)

theorem scover1_A_2 (y : S512x16x64.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.2.1, y ∈ pc.1.set :=
  View.cover_of_tiledL _ S512x16x64.size (by sl_kernel_rfl) y

def sout1_A_2 : Vec F S512x16x64 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 hc0 hc1 x0 x1 x2 x3 x4).2.2.2.1)

theorem scover1_A_3 (y : S512x1024.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.2.2.1, y ∈ pc.1.set :=
  View.cover_of_tiledL _ S512x1024.size (by sl_kernel_rfl) y

def sout1_A_3 : Vec F S512x1024 .bf16 :=
  VS1_3.read (Elt F) (VS1_3.writes (Elt F) VS1_3.junk (kernelRun1_A c i arg3 harg3 arg4 harg4 arg5 harg5 arg6 harg6 arg7 harg7 arg8 harg8 arg9 harg9 arg10 harg10 arg11 harg11 arg12 harg12 hc0 hc1 x0 x1 x2 x3 x4).2.2.2.2.1)

def outs1_A : Vec F S1x512x1024 .f32 × Vec F S512x16x1 .f32 × Vec F S512x16x1 .f32 × Vec F S512x16x64 .f32 × Vec F S512x1024 .bf16 :=
  (out1_A_5 c i arg3 harg3 arg4 harg4 arg5 harg5 arg6 harg6 arg7 harg7 arg8 harg8 arg9 harg9 arg10 harg10 arg11 harg11 arg12 harg12 hc0 hc1 x0 x1 x2 x3 x4, sout1_A_0 c i arg3 harg3 arg4 harg4 arg5 harg5 arg6 harg6 arg7 harg7 arg8 harg8 arg9 harg9 arg10 harg10 arg11 harg11 arg12 harg12 hc0 hc1 x0 x1 x2 x3 x4, sout1_A_1 c i arg3 harg3 arg4 harg4 arg5 harg5 arg6 harg6 arg7 harg7 arg8 harg8 arg9 harg9 arg10 harg10 arg11 harg11 arg12 harg12 hc0 hc1 x0 x1 x2 x3 x4, sout1_A_2 c i arg3 harg3 arg4 harg4 arg5 harg5 arg6 harg6 arg7 harg7 arg8 harg8 arg9 harg9 arg10 harg10 arg11 harg11 arg12 harg12 hc0 hc1 x0 x1 x2 x3 x4, sout1_A_3 c i arg3 harg3 arg4 harg4 arg5 harg5 arg6 harg6 arg7 harg7 arg8 harg8 arg9 harg9 arg10 harg10 arg11 harg11 arg12 harg12 hc0 hc1 x0 x1 x2 x3 x4)

end

section
variable (hc0 : ¬cond1_0 i) (hc1 : ¬cond1_1 i)
    (x0 : Vec F S1x512x1024 .bf16) (x1 : Vec F S1x2048x1024 .bf16) (x2 : Vec F S1x2048x1024 .bf16) (x3 : Vec F S1024x1024 .bf16) (x4 : Vec F S1024 .f32) (xs0 : Vec F S512x16x1 .f32) (xs1 : Vec F S512x16x1 .f32) (xs2 : Vec F S512x16x64 .f32) (xs3 : Vec F S512x1024 .bf16)

def out1_B_5 : Vec F S1x512x1024 .f32 :=
  VO1_5.read (Elt F) (VO1_5.writes (Elt F) VO1_5.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).1)

theorem scover1_B_0 (y : S512x16x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.1, y ∈ pc.1.set :=
  View.cover_of_tiledL (s := S512x16x1) _ S512x1x1.size (by sl_kernel_rfl) y

def sout1_B_0 : Vec F S512x16x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.1)

theorem scover1_B_1 (y : S512x16x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (s := S512x16x1) _ S512x1x1.size (by sl_kernel_rfl) y

def sout1_B_1 : Vec F S512x16x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

theorem scover1_B_2 (y : S512x16x64.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (s := S512x16x64) _ S512x1x64.size (by sl_kernel_rfl) y

def sout1_B_2 : Vec F S512x16x64 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

def outs1_B : Vec F S1x512x1024 .f32 × Vec F S512x16x1 .f32 × Vec F S512x16x1 .f32 × Vec F S512x16x64 .f32 × Vec F S512x1024 .bf16 :=
  (out1_B_5 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_B_0 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_B_1 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_B_2 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_B_3 c i arg3 harg3 arg4 harg4 arg5 harg5 arg6 harg6 arg7 harg7 arg8 harg8 arg9 harg9 arg10 harg10 arg11 harg11 arg12 harg12 hc0 hc1 x0 x1 x2 x3 x4 xs0 xs1 xs2 xs3)

end

section
variable (hc0 : ¬cond1_0 i) (hc1 : cond1_1 i)
    (x0 : Vec F S1x512x1024 .bf16) (x1 : Vec F S1x2048x1024 .bf16) (x2 : Vec F S1x2048x1024 .bf16) (x3 : Vec F S1024x1024 .bf16) (x4 : Vec F S1024 .f32) (xs0 : Vec F S512x16x1 .f32) (xs1 : Vec F S512x16x1 .f32) (xs2 : Vec F S512x16x64 .f32) (xs3 : Vec F S512x1024 .bf16)

theorem cover1_C_5 (y : S1x512x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1, y ∈ pc.1.set :=
  View.cover_of_tiledL _ S1x512x1024.size (by sl_kernel_rfl) y

def out1_C_5 : Vec F S1x512x1024 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1)

theorem scover1_C_0 (y : S512x16x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.1, y ∈ pc.1.set :=
  View.cover_of_tiledL (s := S512x16x1) _ S512x1x1.size (by sl_kernel_rfl) y

def sout1_C_0 : Vec F S512x16x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.1)

theorem scover1_C_1 (y : S512x16x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (s := S512x16x1) _ S512x1x1.size (by sl_kernel_rfl) y

def sout1_C_1 : Vec F S512x16x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

theorem scover1_C_2 (y : S512x16x64.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (s := S512x16x64) _ S512x1x64.size (by sl_kernel_rfl) y

def sout1_C_2 : Vec F S512x16x64 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

def outs1_C : Vec F S1x512x1024 .f32 × Vec F S512x16x1 .f32 × Vec F S512x16x1 .f32 × Vec F S512x16x64 .f32 × Vec F S512x1024 .bf16 :=
  (out1_C_5 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_C_0 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_C_1 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_C_2 c i arg3 harg3 arg4 harg4 arg5 harg5 arg6 harg6 arg7 harg7 arg8 harg8 arg9 harg9 arg10 harg10 arg11 harg11 arg12 harg12 hc0 hc1 x0 x1 x2 x3 x4 xs0 xs1 xs2 xs3, sout1_C_3 c i arg3 harg3 arg4 harg4 arg5 harg5 arg6 harg6 arg7 harg7 arg8 harg8 arg9 harg9 arg10 harg10 arg11 harg11 arg12 harg12 hc0 hc1 x0 x1 x2 x3 x4 xs0 xs1 xs2 xs3)

end

end

variable (V : (c : Dev nD) → (b : Ref sig .tc) → Buf (Elt F) ((c : Thread nD τ).loc b))

def outsAt1 (c : Dev nD) : (n : ℕ) → n < cfg1.N → Vec F S1x512x1024 .f32 × Vec F S512x16x1 .f32 × Vec F S512x16x1 .f32 × Vec F S512x16x64 .f32 × Vec F S512x1024 .bf16
  | 0, hn =>
    outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 8 = 0 then
      if h1 : (n + 1) % 8 = 7 then
        False.elim (by omega)
      else
        outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 8 = 7 then
        outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2
      else
        outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2

theorem outsAt1_A (c : Dev nD) (t : Fin cfg1.N) (h0 : t.val % 8 = 0) (h1 : ¬t.val % 8 = 7) :
    outsAt1 V c t.val t.isLt = outs1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = outs1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = outs1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

def PhiAt1 (c : Dev nD) (o : Vec F S1x512x1024 .f32 × Vec F S512x16x1 .f32 × Vec F S512x16x1 .f32 × Vec F S512x16x64 .f32 × Vec F S512x1024 .bf16) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare o.2.1 ∗ owns (c : Thread nD τ) scM1_1 fullShare o.2.2.1 ∗ owns (c : Thread nD τ) scM1_2 fullShare o.2.2.2.1 ∗ owns (c : Thread nD τ) scM1_3 fullShare o.2.2.2.2) ∗ (∃ r, prngReg c r))

def PhiS1 (c : Dev nD) : (n : ℕ) → n ≤ cfg1.N → sProp 𝕄
  | 0, _ => Pipeline.ΦA spec1 c
  | n + 1, hn => PhiAt1 c (outsAt1 V c n hn)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) : PhiS1 V c (n + 1) hn = PhiAt1 c (outsAt1 V c n hn) := rfl

theorem PhiS1_pos (c : Dev nD) (n : ℕ) (h : n ≤ cfg1.N) (hz : n ≠ 0) :
    PhiS1 V c n h = PhiAt1 c (outsAt1 V c (n - 1) (by omega)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

private theorem owns_of_cover {c : Dev nD} {s : Shape} {e : EltTy} {κ' : Kind} {sp' : Space} (v' : View sig κ' sp' s e)
    (M : Memref sig .tc .vmem s e) (g : Buf (Elt F) (M.view.loc (c : Thread nD τ))) (L : List (View.Piece (Elt F) s e))
    (h : ∀ y, ∃ pc ∈ L, y ∈ pc.1.set) :
    (M.view.loc (c : Thread nD τ) ↦[M.view.set]{fullShare} M.view.writes (Elt F) g L : sProp 𝕄)
      ⊢ owns (c : Thread nD τ) M fullShare (v'.read (Elt F) (v'.writes (Elt F) v'.junk L)) := by
  iintro H; unfold owns; iexists M.view.writes (Elt F) g L; isplitr
  · ipureintro; exact View.read_writes_of_cover _ _ _ _ _ h
  · iexact H

private theorem leavesExact_live {c : Dev nD} (dat : Dat τ (Elt F) Unit ℕ (UR sig nD τ) ℕ cfg1 c) (w : Fin cfg1.W) (t : Fin cfg1.N)
    (h : cfg1.idle w (grid1.coords t) = false) :
    dat.leavesExact w t = owns (c : Thread nD τ) ((cfg1.win w).stage (cfg1.slots t w)) fullShare (dat.after w t) := by
  unfold Dat.leavesExact; rw [h]

theorem PhiS1_some (c : Dev nD) (n : ℕ) (h : n ≤ cfg1.N) : PhiS1 V c n h ⊢ Pipeline.ΦA spec1 c := by
  cases n with
  | zero => exact Entails.refl _
  | succ n =>
    rw [PhiS1_succ, PhiA1_eq]; unfold PhiAt1
    iintro ⟨⟨Hs0, Hs1, Hs2, Hs3, Hs4, Hs5, Hs6, Hs7, Hs8, HS0, HS1, HS2, HS3⟩, Hg⟩
    iframe Hs0 Hs1 Hs2 Hs3 Hs4 Hs5 Hs6 Hs7 Hs8 Hg
    isplitl [HS0]; · iexists _; iexact HS0
    isplitl [HS1]; · iexists _; iexact HS1
    isplitl [HS2]; · iexists _; iexact HS2
    iexists _; iexact HS3

set_option maxHeartbeats 2400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    show (dat1 V c).Φ t.succ = PhiS1 V c (t.val + 1) t.isLt from rfl, PhiS1_succ, PhiS1_castSucc,
    leavesExact_live _ 0 t (liveAt1_0 t), after1_0, leavesExact_live _ 1 t (liveAt1_1 t), after1_1,
    leavesExact_live _ 2 t (liveAt1_2 t), after1_2, leavesExact_live _ 3 t (liveAt1_3 t), after1_3,
    leavesExact_live _ 4 t (liveAt1_4 t), after1_4]
  by_cases h0 : t.val % 8 = 0
  · have h1 : ¬t.val % 8 = 7 := by omega
    have hc0 := (hcond1_0 t).mpr h0
    have hc1 : ¬cond1_1 (grid1.coords t) := fun h => h1 ((hcond1_1 t).mp h)
    rw [Dat.leavesExact_idle _ 5 t (idleAt1_5_A t hc0 hc1) (noFlush1_5_A t hc0 hc1), outsAt1_A V c t h0 h1]
    unfold PhiAt1 outs1_A sout1_A_0 sout1_A_1 sout1_A_2 sout1_A_3; dsimp only
    refine (sep_mono_left (PhiS1_some V c _ _)).trans ?_
    rw [PhiA1_eq]
    iintro ⟨⟨⟨Hs0, Hs1, Hs2, Hs3, Hs4, Hs5, Hs6, Hs7, Hs8, HS0, HS1, HS2, HS3⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t)).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, ⟨%es0, HS0⟩, ⟨%es1, HS1⟩, ⟨%es2, HS2⟩, ⟨%es3, HS3⟩⟩
    iframe Hs0 Hs1 Hs2 Hs3 Hs4 Hs5 Hs6 Hs7 Hs8 Hg Ho
    isplitl [HS0 HS1 HS2 HS3]
    · isplitl [HS0]; · iapply owns_of_cover _ _ _ _ (fun y => scover1_A_0 (y := y) ..) $$ HS0
      isplitl [HS1]; · iapply owns_of_cover _ _ _ _ (fun y => scover1_A_1 (y := y) ..) $$ HS1
      isplitl [HS2]; · iapply owns_of_cover _ _ _ _ (fun y => scover1_A_2 (y := y) ..) $$ HS2
      iapply owns_of_cover _ _ _ _ (fun y => scover1_A_3 (y := y) ..) $$ HS3
    isplitl [H0]; · iexact H0
    isplitl [H1]; · iexact H1
    isplitl [H2]; · iexact H2
    isplitl [H3]; · iexact H3
    isplitl [H4]; · iexact H4
    iexists _; iexact H5
  · have hc0 : ¬cond1_0 (grid1.coords t) := fun h => h0 ((hcond1_0 t).mp h)
    rw [PhiS1_pos V c _ _ (by omega)]
    by_cases h1 : t.val % 8 = 7
    · have hc1 := (hcond1_1 t).mpr h1
      rw [leavesExact_live _ 5 t (liveAt1_5_C t hc0 hc1), after1_5, outsAt1_C V c t h0 h1]
      unfold PhiAt1 outs1_C out1_C_5 sout1_C_0 sout1_C_1 sout1_C_2 sout1_C_3; dsimp only
      iintro ⟨⟨⟨Hs0, Hs1, Hs2, Hs3, Hs4, Hs5, Hs6, Hs7, Hs8, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%es0, HS0⟩, ⟨%es1, HS1⟩, ⟨%es2, HS2⟩, HS3⟩
      iframe Hs0 Hs1 Hs2 Hs3 Hs4 Hs5 Hs6 Hs7 Hs8 Hg Ho
      isplitl [HS0 HS1 HS2 HS3]
      · isplitl [HS0]; · iapply owns_of_cover _ _ _ _ (fun y => scover1_C_0 (y := y) ..) $$ HS0
        isplitl [HS1]; · iapply owns_of_cover _ _ _ _ (fun y => scover1_C_1 (y := y) ..) $$ HS1
        isplitl [HS2]; · iapply owns_of_cover _ _ _ _ (fun y => scover1_C_2 (y := y) ..) $$ HS2
        iexact HS3
      isplitl [H0]; · iexact H0
      isplitl [H1]; · iexact H1
      isplitl [H2]; · iexact H2
      isplitl [H3]; · iexact H3
      isplitl [H4]; · iexact H4
      iapply owns_of_cover _ _ _ _ (fun y => cover1_C_5 (y := y) ..) $$ H5
    · have hc1 : ¬cond1_1 (grid1.coords t) := fun h => h1 ((hcond1_1 t).mp h)
      rw [Dat.leavesExact_idle _ 5 t (idleAt1_5_B t hc0 hc1) (noFlush1_5_B t hc0 hc1), outsAt1_B V c t h0 h1]
      unfold PhiAt1 outs1_B sout1_B_0 sout1_B_1 sout1_B_2 sout1_B_3; dsimp only
      iintro ⟨⟨⟨Hs0, Hs1, Hs2, Hs3, Hs4, Hs5, Hs6, Hs7, Hs8, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ _ _).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, HS3⟩
      iframe Hs0 Hs1 Hs2 Hs3 Hs4 Hs5 Hs6 Hs7 Hs8 Hg Ho
      isplitl [HS0 HS1 HS2 HS3]
      · isplitl [HS0]; · iapply owns_of_cover _ _ _ _ (fun y => scover1_B_0 (y := y) ..) $$ HS0
        isplitl [HS1]; · iapply owns_of_cover _ _ _ _ (fun y => scover1_B_1 (y := y) ..) $$ HS1
        isplitl [HS2]; · iapply owns_of_cover _ _ _ _ (fun y => scover1_B_2 (y := y) ..) $$ HS2
        iexact HS3
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 :=
  Entails.refl _

theorem Phi_out1 (c : Dev nD) (t : Fin (cfg1.N + 1)) (ht : t.val ≠ 0) : (dat1 V c).Φ t ⊢ Pipeline.ΦA spec1 c :=
  PhiS1_some V c _ _

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Launch.lean ====
import proofs.«411452_j50508815401447_3_alg».proof.Proof.KI.Vals
import proofs.«411452_j50508815401447_3_alg».proof.Proof.KI.R0
import proofs.«411452_j50508815401447_3_alg».proof.Proof.KI.R1
import proofs.«411452_j50508815401447_3_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

theorem W3_main_arg0 (c : Dev nD) : W3 m ρ c (Proc.devRef .tc main_arg0) = m ((c : Thread nD τ).loc main_arg0) :=
  (W3_of_ne m ρ c main_arg0 (by decide)).trans <| (W2_arr m ρ c 0).trans <|
    ((dat0 (V1 m ρ) c).arrAt_in 0 rfl _).trans <| (A_eq0 (V1 m ρ) c 0).trans (W1_of m ρ c main_arg0 (by decide))
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans (W1_of m ρ c main_arg1 (by decide))
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans (W1_of m ρ c main_arg2 (by decide))
theorem W3_main_arg3 (c : Dev nD) : W3 m ρ c (Proc.devRef .tc main_arg3) = m ((c : Thread nD τ).loc main_arg3) :=
  (W3_arr m ρ c 4).trans <| ((dat1 (V2 m ρ) c).arrAt_in 4 rfl _).trans <| (A_eq1 (V2 m ρ) c 4).trans <|
    (W2_of_ne m ρ c main_arg3 (by decide)).trans (W1_of m ρ c main_arg3 (by decide))

abbrev adm' : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

theorem toΦA {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) win c)
      ⊢ (Pipeline.ΦA win c : sProp 𝕄) := by
  unfold Pipeline.ΦA
  iintro ⟨Hp, -, Hr⟩
  isplitl [Hr]; · iexact Hr
  iexact Hp

theorem ofΦA {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) win c) := by
  unfold Pipeline.ΦA
  iintro ⟨Hr, Hp⟩
  isplitl [Hp]; · iexact Hp
  isplitr; · iempintro
  iexact Hr

set_option backward.isDefEq.respectTransparency.types false in

def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := toΦA spec0 c _
  hout c := by
    rw [Pipeline.ownSems0_none]
    exact ofΦA spec0 c
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm)
      fun b hb => W2_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA spec1 c _).trans (hin1 (V2 m ρ) c)
  hout c := by
    rw [Pipeline.ownSems0_none]
    exact (hout1 (V2 m ρ) c).trans (ofΦA spec1 c)
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V2 m ρ c) (fun b => W3 m ρ c b) ((pdats m ρ 1 c).arrAt · cfg1.N) (fun w => (W3_arr m ρ c w).symm)
      fun b hb => W3_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm' (pdats m ρ) () defs₀ 𝒱₀ L lv) :=
  [ .host (Pipeline.HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (W0 m ρ) R),
    .region (reg0 m ρ),
    .region (reg1 m ρ) ]
theorem main_run (c : Dev nD) : main (F := F) c = Pipeline.Seg.run (segs m ρ) := (main_chain c).trans (by chain_rfl)

set_option backward.isDefEq.respectTransparency.types false in

theorem run_main : θ_run defs (onTc (τ := τ) (main (F := F))) ⟨m, fun _ => 0, ρ⟩ (fun r => ∀ c : Dev nD,
      r.2.mem ((c.tc : Thread nD τ).loc main_v6) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v6 (by decide))).trans (W3_arr m ρ c 5),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Hand

end
-- ==== Proof.LibOnlineSoftmax.lean ====
import Idealize.ShloMosaic.PureOps.Ideal
import Idealize.ShloMosaic.PureOps.Ideal.Laws
import Mathlib.Data.EReal.Operations
import Mathlib.Analysis.Complex.Exponential
import Mathlib.Algebra.BigOperators.Fin
import Mathlib.Logic.Equiv.Fin.Basic
import Mathlib.Tactic.FieldSimp

noncomputable section

namespace Cert.OnlineSoftmax

open Idealize.ShloMosaic

def mNew {J : Type} [Fintype J] (mp : EReal) (s : J → EReal) : EReal :=
  max mp ((Finset.univ : Finset J).fold max ⊥ s)

def lNew {J : Type} [Fintype J] (mp lp : EReal) (s : J → EReal) : EReal :=
  Ideal.exp (mp - mNew mp s) * lp + ∑ j, Ideal.exp (s j - mNew mp s)

def aNew {J : Type} [Fintype J] (mp ap : EReal) (s v : J → EReal) : EReal :=
  Ideal.exp (mp - mNew mp s) * ap + ∑ j, Ideal.exp (s j - mNew mp s) * v j

def run {J : Type} [Fintype J] (s v : ℕ → J → EReal) : ℕ → EReal × EReal × EReal
  | 0 => (⊥, 0, 0)
  | n + 1 =>
    let st := run s v n
    (mNew st.1 (s n), lNew st.1 st.2.1 (s n), aNew st.1 st.2.2 (s n) (v n))

def rowMax {K : Type} [Fintype K] (s : K → EReal) : EReal := max ⊥ ((Finset.univ : Finset K).fold max ⊥ s)

theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem coe_max' (a b : ℝ) : ((max a b : ℝ) : EReal) = max (a : EReal) (b : EReal) :=
  (EReal.coe_strictMono.monotone).map_max

theorem fold_max_coe {J : Type} (S : Finset J) (hS : S.Nonempty) (f : J → ℝ) :
    S.fold max ⊥ (fun j => (f j : EReal)) = ((S.sup' hS f : ℝ) : EReal) := by
  classical
  induction hS using Finset.Nonempty.cons_induction with
  | singleton a => simp
  | cons a S ha hS ih => rw [Finset.fold_cons, ih, Finset.sup'_cons hS, coe_max']

theorem exp_coe_sub (a b : ℝ) : Ideal.exp ((a : EReal) - (b : EReal)) = ((Real.exp (a - b) : ℝ) : EReal) := by
  rw [← EReal.coe_sub, Ideal.exp_coe]

section Real
variable {J : Type} [Fintype J] [Nonempty J]

def realMax (s : ℕ → J → ℝ) : ℕ → ℝ
  | 0 => Finset.univ.sup' Finset.univ_nonempty (s 0)
  | n + 1 => max (realMax s n) (Finset.univ.sup' Finset.univ_nonempty (s (n + 1)))

theorem mNew_bot (f : J → ℝ) :
    mNew ⊥ (fun j => (f j : EReal)) = ((Finset.univ.sup' Finset.univ_nonempty f : ℝ) : EReal) := by
  rw [mNew, fold_max_coe _ Finset.univ_nonempty, max_eq_right bot_le]

theorem mNew_coe (M : ℝ) (f : J → ℝ) :
    mNew (M : EReal) (fun j => (f j : EReal))
      = ((max M (Finset.univ.sup' Finset.univ_nonempty f) : ℝ) : EReal) := by
  rw [mNew, fold_max_coe _ Finset.univ_nonempty, coe_max']

theorem lNew_bot (f : J → ℝ) :
    lNew ⊥ 0 (fun j => (f j : EReal))
      = ((∑ j, Real.exp (f j - Finset.univ.sup' Finset.univ_nonempty f) : ℝ) : EReal) := by
  rw [lNew, mNew_bot, EReal.bot_sub, Ideal.exp_bot, mul_zero, zero_add, coe_sum]
  exact Finset.sum_congr rfl fun j _ => exp_coe_sub _ _

theorem aNew_bot (f g : J → ℝ) :
    aNew ⊥ 0 (fun j => (f j : EReal)) (fun j => (g j : EReal))
      = ((∑ j, Real.exp (f j - Finset.univ.sup' Finset.univ_nonempty f) * g j : ℝ) : EReal) := by
  rw [aNew, mNew_bot, EReal.bot_sub, Ideal.exp_bot, mul_zero, zero_add, coe_sum]
  exact Finset.sum_congr rfl fun j _ => by rw [exp_coe_sub, EReal.coe_mul]

theorem lNew_coe (M L : ℝ) (f : J → ℝ) :
    lNew (M : EReal) (L : EReal) (fun j => (f j : EReal))
      = ((Real.exp (M - max M (Finset.univ.sup' Finset.univ_nonempty f)) * L
          + ∑ j, Real.exp (f j - max M (Finset.univ.sup' Finset.univ_nonempty f)) : ℝ) : EReal) := by
  rw [lNew, mNew_coe, exp_coe_sub, EReal.coe_add, EReal.coe_mul, coe_sum]
  congr 1

theorem aNew_coe (M A : ℝ) (f g : J → ℝ) :
    aNew (M : EReal) (A : EReal) (fun j => (f j : EReal)) (fun j => (g j : EReal))
      = ((Real.exp (M - max M (Finset.univ.sup' Finset.univ_nonempty f)) * A
          + ∑ j, Real.exp (f j - max M (Finset.univ.sup' Finset.univ_nonempty f)) * g j : ℝ) : EReal) := by
  rw [aNew, mNew_coe, exp_coe_sub, EReal.coe_add, EReal.coe_mul, coe_sum]
  congr 1

theorem rescale (M M' x : ℝ) : Real.exp (M - M') * Real.exp (x - M) = Real.exp (x - M') := by
  rw [← Real.exp_add]; congr 1; ring

theorem run_coe (s v : ℕ → J → ℝ) (n : ℕ) :
    run (fun t j => (s t j : EReal)) (fun t j => (v t j : EReal)) (n + 1)
      = (((realMax s n : ℝ) : EReal),
         ((∑ t ∈ Finset.range (n + 1), ∑ j, Real.exp (s t j - realMax s n) : ℝ) : EReal),
         ((∑ t ∈ Finset.range (n + 1), ∑ j, Real.exp (s t j - realMax s n) * v t j : ℝ) : EReal)) := by
  induction n with
  | zero =>
    show (mNew ⊥ (fun j => (s 0 j : EReal)), lNew ⊥ 0 (fun j => (s 0 j : EReal)),
          aNew ⊥ 0 (fun j => (s 0 j : EReal)) (fun j => (v 0 j : EReal))) = _
    rw [mNew_bot, lNew_bot, aNew_bot]
    simp [realMax]
  | succ n ih =>
    rw [run, ih]
    show (mNew _ (fun j => (s (n + 1) j : EReal)), lNew _ _ (fun j => (s (n + 1) j : EReal)),
          aNew _ _ (fun j => (s (n + 1) j : EReal)) (fun j => (v (n + 1) j : EReal))) = _
    rw [mNew_coe, lNew_coe, aNew_coe]
    have hM : realMax s (n + 1) = max (realMax s n) (Finset.univ.sup' Finset.univ_nonempty (s (n + 1))) := rfl
    rw [← hM]
    refine Prod.ext rfl (Prod.ext ?_ ?_) <;>
    · show ((_ : ℝ) : EReal) = ((_ : ℝ) : EReal)
      congr 1
      rw [Finset.sum_range_succ _ (n + 1), Finset.mul_sum]
      congr 1
      refine Finset.sum_congr rfl fun t _ => ?_
      rw [Finset.mul_sum]
      exact Finset.sum_congr rfl fun j _ => by first | exact rescale _ _ _ | rw [← mul_assoc, rescale]

end Real

section Quotient
variable {K : Type} [Fintype K] [Nonempty K]

theorem sum_exp_pos (s : K → ℝ) (M : ℝ) : 0 < ∑ k, Real.exp (s k - M) :=
  Finset.sum_pos (fun _ _ => Real.exp_pos _) Finset.univ_nonempty

theorem shift_quotient (s v : K → ℝ) (M : ℝ) :
    (∑ k, Real.exp (s k - M) * v k) * (1 / ∑ k, Real.exp (s k - M))
      = (∑ k, Real.exp (s k) * v k) / (∑ k, Real.exp (s k)) := by
  have hE : (0 : ℝ) < ∑ k, Real.exp (s k) := by simpa using sum_exp_pos s 0
  have hM : Real.exp M ≠ 0 := (Real.exp_pos M).ne'
  have h1 : ∑ k, Real.exp (s k - M) * v k = (∑ k, Real.exp (s k) * v k) / Real.exp M := by
    rw [Finset.sum_div]
    exact Finset.sum_congr rfl fun k _ => by rw [Real.exp_sub]; ring
  have h2 : ∑ k, Real.exp (s k - M) = (∑ k, Real.exp (s k)) / Real.exp M := by
    rw [Finset.sum_div]
    exact Finset.sum_congr rfl fun k _ => by rw [Real.exp_sub]
  rw [h1, h2]
  field_simp

theorem softmax_coe (s v : K → ℝ) :
    ∑ k, Ideal.div (Ideal.exp ((s k : EReal) - rowMax (fun k' => (s k' : EReal))))
            (∑ k', Ideal.exp ((s k' : EReal) - rowMax (fun k'' => (s k'' : EReal)))) * (v k : EReal)
      = (((∑ k, Real.exp (s k) * v k) / (∑ k, Real.exp (s k)) : ℝ) : EReal) := by
  rw [rowMax, fold_max_coe _ Finset.univ_nonempty s, max_eq_right bot_le]
  set M : ℝ := Finset.univ.sup' Finset.univ_nonempty s with hMdef
  have hden : ∑ k', Ideal.exp ((s k' : EReal) - (M : EReal)) = ((∑ k', Real.exp (s k' - M) : ℝ) : EReal) := by
    rw [coe_sum]
    exact Finset.sum_congr rfl fun k _ => exp_coe_sub _ _
  rw [hden, ← shift_quotient s v M, Finset.sum_mul,
    coe_sum Finset.univ (fun k => Real.exp (s k - M) * v k * (1 / ∑ k', Real.exp (s k' - M)))]
  refine Finset.sum_congr rfl fun k _ => ?_
  rw [exp_coe_sub, Ideal.div_coe (sum_exp_pos s M).ne', ← EReal.coe_mul, ← EReal.coe_mul]
  congr 1
  ring

end Quotient

theorem sum_tiles {β : Type} [AddCommMonoid β] (g : Fin 2048 → β) :
    ∑ t ∈ Finset.range 8, ∑ j : Fin 256, g ⟨(256 * t + j.val) % 2048, Nat.mod_lt _ (by norm_num)⟩ = ∑ k, g k := by
  rw [Finset.sum_range (fun t => ∑ j : Fin 256, g ⟨(256 * t + j.val) % 2048, Nat.mod_lt _ (by norm_num)⟩)]
  rw [← Fintype.sum_prod_type' (γ := β) (fun (t : Fin 8) (j : Fin 256) =>
        g ⟨(256 * t.val + j.val) % 2048, Nat.mod_lt _ (by norm_num)⟩)]
  refine Fintype.sum_equiv (finProdFinEquiv.trans (finCongr (by norm_num))) _ _ fun p => ?_
  congr 1
  apply Fin.ext
  have h1 := p.1.isLt
  have h2 := p.2.isLt
  show (256 * p.1.val + p.2.val) % 2048 = p.2.val + 256 * p.1.val
  omega

theorem run_succ {J : Type} [Fintype J] (s v : ℕ → J → EReal) (n : ℕ) :
    run s v (n + 1) = (mNew (run s v n).1 (s n), lNew (run s v n).1 (run s v n).2.1 (s n),
      aNew (run s v n).1 (run s v n).2.2 (s n) (v n)) := rfl

def tile (f : Fin 2048 → ℝ) (t : ℕ) (j : Fin 256) : ℝ :=
  f ⟨(256 * t + j.val) % 2048, Nat.mod_lt _ (by norm_num)⟩

theorem run_quotient (s v : Fin 2048 → ℝ) :
    let st := run (J := Fin 256) (fun t j => ((s ⟨(256 * t + j.val) % 2048, Nat.mod_lt _ (by norm_num)⟩ : ℝ) : EReal))
                 (fun t j => ((v ⟨(256 * t + j.val) % 2048, Nat.mod_lt _ (by norm_num)⟩ : ℝ) : EReal)) 8
    Ideal.div st.2.2 st.2.1
      = ∑ k : Fin 2048, Ideal.div (Ideal.exp ((s k : EReal) - rowMax (fun k' => (s k' : EReal))))
            (∑ k' : Fin 2048, Ideal.exp ((s k' : EReal) - rowMax (fun k'' => (s k'' : EReal)))) * (v k : EReal) := by
  intro st
  have hL : (∑ t ∈ Finset.range 8, ∑ j, Real.exp (tile s t j - realMax (tile s) 7))
      = ∑ k, Real.exp (s k - realMax (tile s) 7) :=
    sum_tiles (fun k => Real.exp (s k - realMax (tile s) 7))
  have hA : (∑ t ∈ Finset.range 8, ∑ j, Real.exp (tile s t j - realMax (tile s) 7) * tile v t j)
      = ∑ k, Real.exp (s k - realMax (tile s) 7) * v k :=
    sum_tiles (fun k => Real.exp (s k - realMax (tile s) 7) * v k)
  have h8 : st = (((realMax (tile s) 7 : ℝ) : EReal),
      ((∑ t ∈ Finset.range 8, ∑ j, Real.exp (tile s t j - realMax (tile s) 7) : ℝ) : EReal),
      ((∑ t ∈ Finset.range 8, ∑ j, Real.exp (tile s t j - realMax (tile s) 7) * tile v t j : ℝ) : EReal)) :=
    run_coe (tile s) (tile v) 7
  rw [hL, hA] at h8
  rw [h8, softmax_coe s v, Ideal.div_coe (sum_exp_pos s _).ne', ← EReal.coe_mul, shift_quotient]

end Cert.OnlineSoftmax

end
-- ==== Proof.Spec.lean ====
import Idealize.ShloMosaic.PureOps.Ideal
import Idealize.ShloMosaic.Lib.ValueIdx
import proofs.«411452_j50508815401447_3_alg».proof.Proof.LibOnlineSoftmax

noncomputable section

namespace Cert.Spec

open Idealize.ShloMosaic Idealize.ShloMosaic.ValueIdx

abbrev SX : Shape := ⟨3, ![2, 2048, 1024]⟩
abbrev SW : Shape := ⟨2, ![3072, 1024]⟩
abbrev SO : Shape := ⟨2, ![1024, 1024]⟩
abbrev SB : Shape := ⟨1, ![1024]⟩

def xi (b : Fin 2) (s : Fin 2048) (d : Fin 1024) : SX.Idx := ix3 b s d
def wi (f : Fin 3072) (d : Fin 1024) : SW.Idx := ix2 f d
def oi (e : Fin 1024) (f : Fin 1024) : SO.Idx := ix2 e f
def bi (e : Fin 1024) : SB.Idx := ix1 e

variable (x : SX.Idx → EReal) (w : SW.Idx → EReal) (ow : SO.Idx → EReal) (ob : SB.Idx → EReal)

def qkv (b : Fin 2) (s : Fin 2048) (f : Fin 3072) : EReal := ∑ d : Fin 1024, x (xi b s d) * w (wi f d)

def row (h : Fin 16) (br : Fin 3) (r : Fin 64) : Fin 3072 := ⟨192 * h.val + 64 * br.val + r.val, by omega⟩

def q (b : Fin 2) (h : Fin 16) (s : Fin 2048) (r : Fin 64) : EReal := qkv x w b s (row h 0 r)
def k (b : Fin 2) (h : Fin 16) (s : Fin 2048) (r : Fin 64) : EReal := qkv x w b s (row h 1 r)
def v (b : Fin 2) (h : Fin 16) (s : Fin 2048) (r : Fin 64) : EReal := qkv x w b s (row h 2 r)

def sc (b : Fin 2) (h : Fin 16) (s j : Fin 2048) : EReal :=
  Ideal.div (∑ r : Fin 64, q x w b h s r * k x w b h j r) (Ideal.sqrt (Ideal.ofBits .f32 0x42800000#32))

def mx (b : Fin 2) (h : Fin 16) (s : Fin 2048) : EReal := Cert.OnlineSoftmax.rowMax (fun j : Fin 2048 => sc x w b h s j)

def ex (b : Fin 2) (h : Fin 16) (s j : Fin 2048) : EReal := Ideal.exp (sc x w b h s j - mx x w b h s)

def att (b : Fin 2) (s : Fin 2048) (h : Fin 16) (r : Fin 64) : EReal :=
  ∑ j : Fin 2048, Ideal.div (ex x w b h s j) (∑ j' : Fin 2048, ex x w b h s j') * v x w b h j r

def headOf (f : Fin 1024) : Fin 16 := ⟨f.val / 64, by omega⟩
def coordOf (f : Fin 1024) : Fin 64 := ⟨f.val % 64, by omega⟩

def out : SX.Idx → EReal := fun i =>
  (∑ f : Fin 1024, att x w (i 0) (i 1) (headOf f) (coordOf f) * ow (oi (i 2) f)) + ob (bi (i 2))

end Cert.Spec

end
-- ==== Proof.RefValue.lean ====
import proofs.«411452_j50508815401447_3_alg».proof.Proof.Gen.ReferenceIdeal.Run
import proofs.«411452_j50508815401447_3_alg».proof.Proof.Gen.ReferenceIdeal.Read
import proofs.«411452_j50508815401447_3_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Spec (qkv row xi wi oi bi sc mx ex att headOf coordOf)

variable (x : FVec Ideal S2x2048x1024 .f32) (w : FVec Ideal S3072x1024 .f32)

theorem proj_at (b : Fin 2) (s : Fin 2048) (f : Fin 3072) : val_main_v0 (F := Ideal) x w (ix3 b s f) = qkv x w b s f :=
  (val_main_v0_apply x w _).trans
    (Finset.sum_congr rfl fun _ _ => congrArg₂ (· * ·) (congrArg x (eq_ix3 _)) (congrArg w (eq_ix2 _)))

theorem heads_at (b : Fin 2) (h : Fin 16) (s : Fin 2048) (c : Fin 192) :
    val_main_v2 (F := Ideal) x w (ix4 b h s c) = qkv x w b s ⟨192 * h.val + c.val, by omega⟩ := by
  rw [val_main_v2_apply, val_main_v1_apply, ← proj_at]
  refine congrArg (val_main_v0 (F := Ideal) x w) (funext fun a => Fin.ext ?_)
  have hb : b.val < 2 := b.isLt
  have hh : h.val < 16 := h.isLt
  have hs : s.val < 2048 := s.isLt
  have hc : c.val < 192 := c.isLt
  match a with
  | ⟨0, _⟩ => show (((b.val * 2048 + s.val) * 16 + h.val) * 192 + c.val) / 6291456 = b.val; omega
  | ⟨1, _⟩ => show (((b.val * 2048 + s.val) * 16 + h.val) * 192 + c.val) / 3072 % 2048 = s.val; omega
  | ⟨2, _⟩ => show (((b.val * 2048 + s.val) * 16 + h.val) * 192 + c.val) % 3072 = 192 * h.val + c.val; omega

-- Coordinate 64·br + r of a head's 192 is coordinate r of its band br.
theorem band_at (br : Fin 3) (r : Fin 64) (i : S2x16x2048x192.Idx) (hi : (i 3).val = 64 * br.val + r.val) :
    val_main_v2 (F := Ideal) x w i = qkv x w (i 0) (i 2) (row (i 1) br r) :=
  (congrArg _ (eq_ix4 i)).trans ((heads_at x w _ _ _ _).trans (congrArg _ (Fin.ext (by
    show 192 * (i 1).val + (i 3).val = 192 * (i 1).val + 64 * br.val + r.val; omega))))

theorem query_at (b : Fin 2) (h : Fin 16) (s : Fin 2048) (r : Fin 64) :
    val_main_v3 (F := Ideal) x w (ix4 b h s r) = Cert.Spec.q x w b h s r :=
  (val_main_v3_apply (F := Ideal) x w _).trans (band_at x w 0 r _ (Nat.zero_add _).symm)

theorem key_at (b : Fin 2) (h : Fin 16) (s : Fin 2048) (r : Fin 64) :
    val_main_v4 (F := Ideal) x w (ix4 b h s r) = Cert.Spec.k x w b h s r :=
  (val_main_v4_apply (F := Ideal) x w _).trans (band_at x w 1 r _ rfl)

theorem value_at (b : Fin 2) (h : Fin 16) (s : Fin 2048) (r : Fin 64) :
    val_main_v5 (F := Ideal) x w (ix4 b h s r) = Cert.Spec.v x w b h s r :=
  (val_main_v5_apply (F := Ideal) x w _).trans (band_at x w 2 r _ rfl)

theorem dots_at (b : Fin 2) (h : Fin 16) (s j : Fin 2048) :
    val_main_v6 (F := Ideal) x w (ix4 b h s j) = ∑ r : Fin 64, Cert.Spec.q x w b h s r * Cert.Spec.k x w b h j r :=
  (val_main_v6_apply x w _).trans (Finset.sum_congr rfl fun r _ => congrArg₂ (· * ·)
    ((congrArg _ (eq_ix4 _)).trans (query_at x w b h s r)) ((congrArg _ (eq_ix4 _)).trans (key_at x w b h j r)))

theorem scale_at (i : S2x16x2048x2048.Idx) :
    val_main_v8 (F := Ideal) i = Ideal.sqrt (Ideal.ofBits .f32 0x42800000#32) := by
  rw [val_main_v8_apply, val_main_v7_apply, val_main_cst_apply, Ideal.hostUnary_sqrt_def, Ideal.ofBits_def]

theorem score_at (b : Fin 2) (h : Fin 16) (s j : Fin 2048) : val_main_v9 (F := Ideal) x w (ix4 b h s j) = sc x w b h s j := by
  rw [val_main_v9_apply, dots_at, scale_at, Ideal.hostDivf_def]
  rfl

theorem negInf_word : Ideal.ofBits .f32 0xFF800000#32 = (⊥ : EReal) := by
  simp [Ideal.ofBits, Ideal.ieee]

theorem keyAxis : S2x16x2048x2048.Reduces [3] S2x16x2048 := by decide

theorem keyAxis_lift (b : Fin 2) (h : Fin 16) (s : Fin 2048) (k : Fin (S2x16x2048x2048.size 3)) :
    keyAxis.lift (ix3 b h s) k = ix4 b h s (⟨k.val, k.isLt⟩ : Fin 2048) := eq_ix4 _

theorem fold_at (b : Fin 2) (h : Fin 16) (s : Fin 2048) :
    val_main_v10 (F := Ideal) x w (ix3 b h s) = (Finset.univ : Finset (Fin 2048)).fold max ⊥ (fun j => sc x w b h s j) := by
  unfold val_main_v10
  rw [Host.reduce_eq_fold_single (α := Ideal .f32) (FloatOps.maximumf (F := Ideal) (φ := .f32))
    (val_main_v9 (F := Ideal) x w : S2x16x2048x2048.Idx → Ideal .f32) (val_main_cst_0 (F := Ideal) : S_.Idx → Ideal .f32)
    reducesTo_S2x16x2048x2048_S2x16x2048_d3 keyAxis h_S_, val_main_cst_0_apply, Ideal.ofBits_def, negInf_word]
  have hf : (val_main_v9 (F := Ideal) x w ∘ keyAxis.lift (ix3 b h s)) = fun j : Fin 2048 => sc x w b h s j :=
    funext fun k => by
      show val_main_v9 (F := Ideal) x w (keyAxis.lift (ix3 b h s) k) = _
      rw [keyAxis_lift, score_at]
      rfl
  rw [hf]
  rfl

theorem rowmax_at (b : Fin 2) (h : Fin 16) (s : Fin 2048) : val_main_v12 (F := Ideal) x w (ix3 b h s) = mx x w b h s := by
  rw [val_main_v12_apply, val_main_v11_apply, val_main_cst_1_apply, fold_at, Ideal.ofBits_def, negInf_word,
    Ideal.maximumf_def]
  rfl

theorem shift_at (b : Fin 2) (h : Fin 16) (s j : Fin 2048) : val_main_v14 (F := Ideal) x w (ix4 b h s j) = mx x w b h s := by
  rw [val_main_v14_apply, val_main_v13_apply, show idx_main_v13 (idx_main_v14 (ix4 b h s j)) = ix3 b h s from eq_ix3 _,
    rowmax_at]

theorem weight_at (b : Fin 2) (h : Fin 16) (s j : Fin 2048) : val_main_v16 (F := Ideal) x w (ix4 b h s j) = ex x w b h s j := by
  rw [val_main_v16_apply, val_main_v15_apply, score_at, shift_at, Ideal.hostUnary_exp_def, Ideal.subf_def]
  rfl

theorem norm_at (b : Fin 2) (h : Fin 16) (s : Fin 2048) :
    val_main_v17 (F := Ideal) x w (ix3 b h s) = ∑ j : Fin 2048, ex x w b h s j := by
  rw [val_main_v17_apply, val_main_cst_2_apply, Ideal.ofBits_def, Ideal.ofBits_zero_f32, zero_add]
  exact Finset.sum_congr rfl fun j _ => (congrArg _ (eq_ix4 _)).trans (weight_at x w b h s j)

theorem prob_at (b : Fin 2) (h : Fin 16) (s j : Fin 2048) :
    val_main_v20 (F := Ideal) x w (ix4 b h s j) = Ideal.div (ex x w b h s j) (∑ j' : Fin 2048, ex x w b h s j') := by
  rw [val_main_v20_apply, weight_at, val_main_v19_apply, val_main_v18_apply,
    show idx_main_v18 (idx_main_v19 (ix4 b h s j)) = ix3 b h s from eq_ix3 _, norm_at, Ideal.hostDivf_def]

theorem attended_at (b : Fin 2) (h : Fin 16) (s : Fin 2048) (r : Fin 64) :
    val_main_v21 (F := Ideal) x w (ix4 b h s r) = att x w b s h r :=
  (val_main_v21_apply x w _).trans (Finset.sum_congr rfl fun j _ => congrArg₂ (· * ·)
    ((congrArg _ (eq_ix4 _)).trans (prob_at x w b h s j)) ((congrArg _ (eq_ix4 _)).trans (value_at x w b h j r)))

theorem concat_at (b : Fin 2) (s : Fin 2048) (f : Fin 1024) :
    val_main_v23 (F := Ideal) x w (ix3 b s f) = att x w b s (headOf f) (coordOf f) := by
  rw [val_main_v23_apply, val_main_v22_apply, ← attended_at]
  refine congrArg (val_main_v21 (F := Ideal) x w) (funext fun a => Fin.ext ?_)
  have hb : b.val < 2 := b.isLt
  have hs : s.val < 2048 := s.isLt
  have hf : f.val < 1024 := f.isLt
  match a with
  | ⟨0, _⟩ => show ((b.val * 2048 + s.val) * 1024 + f.val) / 2097152 = b.val; omega
  | ⟨1, _⟩ => show ((b.val * 2048 + s.val) * 1024 + f.val) / 64 % 16 = f.val / 64; omega
  | ⟨2, _⟩ => show ((b.val * 2048 + s.val) * 1024 + f.val) / 1024 % 2048 = s.val; omega
  | ⟨3, _⟩ => show ((b.val * 2048 + s.val) * 1024 + f.val) % 64 = f.val % 64; omega

variable (ow : FVec Ideal S1024x1024 .f32) (ob : FVec Ideal S1024 .f32)

theorem result_eq : val_main_v27 (F := Ideal) x w ow ob = Cert.Spec.out x w ow ob := by
  funext i
  obtain ⟨b, s, e, rfl⟩ : ∃ (b : Fin 2) (s : Fin 2048) (e : Fin 1024), i = ix3 b s e := ⟨i 0, i 1, i 2, eq_ix3 i⟩
  rw [val_main_v27_apply, val_main_v24_apply, val_main_v26_apply, val_main_v25_apply, Ideal.addf_def,
    show idx_main_v25 (idx_main_v26 (ix3 b s e)) = bi e from eq_ix1 _]
  exact congrArg (· + _) (Finset.sum_congr rfl fun f _ => congrArg₂ (· * ·)
    ((congrArg _ (eq_ix3 _)).trans (concat_at x w b s f)) (congrArg ow (eq_ix2 _)))

open Idealize.ShloMosaic.TcCoe Idealize.SL.Sem

theorem res_eq (m : (ℓ : Loc nD τ sig) → Buf (Elt Ideal) ℓ) (c : Dev nD) :
    Cert.ReferenceIdeal.Value.res_out0 (F := Ideal) m c
      = Cert.Spec.out (m ((c.tc : Thread nD τ).loc main_arg0)) (m ((c.tc : Thread nD τ).loc main_arg1))
          (m ((c.tc : Thread nD τ).loc main_arg2)) (m ((c.tc : Thread nD τ).loc main_arg3)) :=
  (val_main_v27_eq (F := Ideal) m c).trans (result_eq _ _ _ _)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27)
        = Cert.Spec.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => ⟨(h c).1.trans (res_eq m c), (h c).2⟩)
    (Cert.ReferenceIdeal.Value.run (F := Ideal) m ρ)

end Cert.ReferenceIdeal.RefValue

end
-- ==== Proof.KI.R1Cover.lean ====
import proofs.«411452_j50508815401447_3_alg».proof.Proof.Gen.KernelIdeal.Launch
import proofs.«411452_j50508815401447_3_alg».proof.Proof.Gen.KernelIdeal.Points
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

theorem idx_onto1_5 : ∀ (q0 : Fin 2) (q1 : Fin 4) (q2 : Fin 1),
    ∃ t : Fin cfg1.N, (cfg1.win 5).flush t = true ∧ win1_5.index t = ![q0.val, q1.val, q2.val] :=
  (by decide +kernel : ∀ (q0 : Fin 2) (q1 : Fin 4) (q2 : Fin 1),
    ∃ t : Fin grid1.N, win1_5.flush t = true ∧ win1_5.index t = ![q0.val, q1.val, q2.val])

theorem mem_blk1_5 (t : Fin cfg1.N) (i : S2x2048x1024.Idx) :
    i ∈ ((cfg1.win 5).blk t).view.set ↔ ∀ a : Fin 3, win1_5.index t a * S1x512x1024.size a ≤ (i a).val ∧ (i a).val < win1_5.index t a * S1x512x1024.size a + S1x512x1024.size a := by
  show i ∈ ((View.whole main_v6).slice (win1_5.rect t)).set ↔ _
  rw [View.set_slice_whole, Rect.mem_set_unit]
  exact Iff.rfl

theorem arrCover1_5 (i : S2x2048x1024.Idx) :
    ∃ t : Fin cfg1.N, (cfg1.win 5).flush t = true ∧ i ∈ ((cfg1.win 5).blk t).view.set := by
  have hi0 : (i 0).val < 2 := (i 0).isLt
  have hi1 : (i 1).val < 2048 := (i 1).isLt
  have hi2 : (i 2).val < 1024 := (i 2).isLt
  obtain ⟨t, hf, ht⟩ := idx_onto1_5 ⟨(i 0).val, by omega⟩ ⟨(i 1).val / 512, by omega⟩ ⟨(i 2).val / 1024, by omega⟩
  have q0 : win1_5.index t (0 : Fin 3) = (i 0).val := congrFun ht 0
  have q1 : win1_5.index t (1 : Fin 3) = (i 1).val / 512 := congrFun ht 1
  have q2 : win1_5.index t (2 : Fin 3) = (i 2).val / 1024 := congrFun ht 2
  refine ⟨t, hf, ?_⟩
  rw [mem_blk1_5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

theorem cut1_5 {α : Type} (i : grid1.Coords) (X : (cfg1.win 5).block.Idx → α) : (cfg1.win 5).cut i X = X := rfl

end Cert.KernelIdeal.Hand

end
-- ==== Proof.KI.R1Arr.lean ====
import proofs.«411452_j50508815401447_3_alg».proof.Proof.KI.R1
import proofs.«411452_j50508815401447_3_alg».proof.Proof.KI.R1Cover

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem flushed1_5_any (c : Dev nD) (t : Fin cfg1.N) :
    (dat1 V c).flushed 5 t = (outsAt1 V c t.val t.isLt).1 := by
  show (cfg1.win 5).cut (grid1.coords t) ((dat1 V c).after 5 t) = _
  rw [after1_5]
  exact cut1_5 _ _

theorem arrAt1_5_eq_of (c : Dev nD) (G : Buf (Elt F) ((c : Thread nD τ).loc main_v6))
    (hG : ∀ t : Fin cfg1.N, t.val % 8 = 7 → (outsAt1 V c t.val t.isLt).1 = ((cfg1.win 5).blk t).view.read (Elt F) G) :
    (dat1 V c).arrAt 5 cfg1.N = G :=
  (dat1 V c).arrAt_eq_of_cover 5 G (fun t hf => (flushed1_5_any V c t).trans (hG t ((flush1_5 t).mp hf))) arrCover1_5

end Cert.KernelIdeal.Hand

end
-- ==== Proof.KI.R1Blocks.lean ====
import proofs.«411452_j50508815401447_3_alg».proof.Proof.KI.R1Shared
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]

variable (V : (c : Dev nD) → (b : Ref sig .tc) → Buf (Elt F) ((c : Thread nD τ).loc b))

-- Point t = 32·b + 8·g + n of the [2, 4, 8] grid reads row block (b, g) of the queries.
theorem index_facts1 : ∀ t : Fin cfg1.N,
    win1_0.index t (0 : Fin 3) = t.val / 32 ∧ win1_0.index t (1 : Fin 3) = (t.val / 8) % 4 :=
  (by decide +kernel : ∀ t : Fin grid1.N, _)

theorem point_lt (t : Fin cfg1.N) : t.val < 64 := by
  have h := t.isLt
  have hN : cfg1.N = 64 := N_1
  omega

-- Row r of point t's 512-row block is row 512·((t / 8) % 4) + r of batch t / 32.
theorem row_block_emb (t : Fin cfg1.N) (r : Fin 512) (f : Fin 1024) :
    (win1_0.rect t).emb (ix3 (0 : Fin 1) r f)
      = ix3 (⟨t.val / 32, by have := point_lt t; omega⟩ : Fin 2)
          (⟨512 * ((t.val / 8) % 4) + r.val, by have := r.isLt; omega⟩ : Fin 2048) f := by
  obtain ⟨e0, e1⟩ := index_facts1 t
  refine funext fun a => Fin.ext ?_
  match a with
  | ⟨0, _⟩ => show win1_0.index t (0 : Fin 3) * 1 + 1 * 0 = t.val / 32; omega
  | ⟨1, _⟩ => show win1_0.index t (1 : Fin 3) * 512 + 1 * r.val = 512 * ((t.val / 8) % 4) + r.val; omega
  | ⟨2, _⟩ => show 0 * 1024 + 1 * f.val = f.val; omega

theorem iblk1_0_apply (c : Dev nD) (t : Fin cfg1.N) (r : Fin 512) (f : Fin 1024) :
    iblk1 V c 0 t (ix3 (0 : Fin 1) r f)
      = V c main_v5_0 (ix3 (⟨t.val / 32, by have := point_lt t; omega⟩ : Fin 2)
          (⟨512 * ((t.val / 8) % 4) + r.val, by have := r.isLt; omega⟩ : Fin 2048) f) :=
  congrArg (V c main_v5_0) (row_block_emb t r f)

-- The keys' and the values' block at point t is the whole [2048, 1024] slab of batch t / 32.
theorem slab_emb (t : Fin cfg1.N) (j : Fin 2048) (f : Fin 1024) :
    (win1_1.rect t).emb (ix3 (0 : Fin 1) j f) = ix3 (⟨t.val / 32, by have := point_lt t; omega⟩ : Fin 2) j f := by
  obtain ⟨e0, -⟩ := index_facts1 t
  refine funext fun a => Fin.ext ?_
  match a with
  | ⟨0, _⟩ => show win1_0.index t (0 : Fin 3) * 1 + 1 * 0 = t.val / 32; omega
  | ⟨1, _⟩ => show 0 * 2048 + 1 * j.val = j.val; omega
  | ⟨2, _⟩ => show 0 * 1024 + 1 * f.val = f.val; omega

theorem iblk1_3_apply (c : Dev nD) (t : Fin cfg1.N) (e : Fin 1024) (f : Fin 1024) :
    iblk1 V c 3 t (ix2 e f) = V c main_v4 (ix2 e f) :=
  congrArg (V c main_v4) (funext fun a => Fin.ext (win1_3.rect_emb_val_of_index_zero t a (by
    match a with | ⟨0, _⟩ => rfl | ⟨1, _⟩ => rfl) _))

theorem iblk1_4_apply (c : Dev nD) (t : Fin cfg1.N) (e : Fin 1024) :
    iblk1 V c 4 t (ix1 e) = V c main_arg3 (ix1 e) :=
  congrArg (V c main_arg3) (funext fun a => Fin.ext (win1_4.rect_emb_val_of_index_zero t a (by
    match a with | ⟨0, _⟩ => rfl) _))

theorem k1_off1_val : ∀ t : Fin cfg1.N, k1_off1 (grid1.coords t) 1 = 256 * (t.val % 8) :=
  (by decide +kernel : ∀ t : Fin grid1.N, k1_off1 (grid1.coords t) 1 = 256 * (t.val % 8))

-- Row j of the n-th 256-row tile of a slab, n = t % 8, is its row 256·n + j.
theorem chunk_apply (x1 : Vec F S1x2048x1024 .bf16) (t : Fin cfg1.N) (j : Fin 256) (f : Fin 1024) :
    View.ld x1 (Rect.unit (s := S1x2048x1024) (k1_off1 (grid1.coords t)) S1x256x1024.size (k1_off1_inb (grid1.coords t))) (ix3 (0 : Fin 1) j f)
      = x1 (ix3 (0 : Fin 1) (⟨256 * (t.val % 8) + j.val, by have := j.isLt; omega⟩ : Fin 2048) f) := by
  have h := k1_off1_val t
  refine congrArg x1 (funext fun a => Fin.ext ?_)
  match a with
  | ⟨0, _⟩ => rfl
  | ⟨1, _⟩ => show k1_off1 (grid1.coords t) 1 + 1 * j.val = 256 * (t.val % 8) + j.val; omega
  | ⟨2, _⟩ => show 0 + 1 * f.val = f.val; omega

theorem key_tile_apply (c : Dev nD) (t : Fin cfg1.N) (j : Fin 256) (f : Fin 1024) :
    View.ld (iblk1 V c 1 t) (Rect.unit (s := S1x2048x1024) (k1_off1 (grid1.coords t)) S1x256x1024.size (k1_off1_inb (grid1.coords t))) (ix3 (0 : Fin 1) j f)
      = V c main_v5_1 (ix3 (⟨t.val / 32, by have := point_lt t; omega⟩ : Fin 2)
          (⟨256 * (t.val % 8) + j.val, by have := j.isLt; omega⟩ : Fin 2048) f) :=
  (chunk_apply (iblk1 V c 1 t) t j f).trans (congrArg (V c main_v5_1) (slab_emb t _ f))

theorem value_tile_apply (c : Dev nD) (t : Fin cfg1.N) (j : Fin 256) (f : Fin 1024) :
    View.ld (iblk1 V c 2 t) (Rect.unit (s := S1x2048x1024) (k1_off1 (grid1.coords t)) S1x256x1024.size (k1_off1_inb (grid1.coords t))) (ix3 (0 : Fin 1) j f)
      = V c main_v5_2 (ix3 (⟨t.val / 32, by have := point_lt t; omega⟩ : Fin 2)
          (⟨256 * (t.val % 8) + j.val, by have := j.isLt; omega⟩ : Fin 2048) f) :=
  (chunk_apply (iblk1 V c 2 t) t j f).trans (congrArg (V c main_v5_2) (slab_emb t _ f))

end Cert.KernelIdeal.Hand

end
-- ==== Proof.HeadSem.lean ====
import proofs.«411452_j50508815401447_3_alg».proof.KernelIdeal
import proofs.«411452_j50508815401447_3_alg».proof.Proof.LibOnlineSoftmax
import Idealize.ShloMosaic.Lib.ValueIdx

noncomputable section

namespace Cert.KernelIdeal.HeadSem

open Idealize.ShloMosaic Idealize.ShloMosaic.ValueIdx Cert.KernelIdeal Cert.OnlineSoftmax

def col (h : Fin 16) (d : Fin 64) : Fin 1024 := ⟨64 * h.val + d.val, by omega⟩

def score (qf : S512x1024.Idx → EReal) (kc : S256x1024.Idx → EReal) (h : Fin 16) (r : Fin 512) (j : Fin 256) : EReal :=
  ∑ d : Fin 64, qf (ix2 r (col h d)) * kc (ix2 j (col h d))

def mAfter (qf : S512x1024.Idx → EReal) (kc : S256x1024.Idx → EReal) (h : Fin 16) (mp : Fin 512 → EReal) (r : Fin 512) : EReal :=
  mNew (mp r) (fun j : Fin 256 => score qf kc h r j)

def lAfter (qf : S512x1024.Idx → EReal) (kc : S256x1024.Idx → EReal) (h : Fin 16) (mp lp : Fin 512 → EReal) (r : Fin 512) : EReal :=
  lNew (mp r) (lp r) (fun j : Fin 256 => score qf kc h r j)

def aAfter (qf : S512x1024.Idx → EReal) (kc vc : S256x1024.Idx → EReal) (h : Fin 16) (mp : Fin 512 → EReal)
    (ap : Fin 512 → Fin 64 → EReal) (r : Fin 512) (d : Fin 64) : EReal :=
  aNew (mp r) (ap r d) (fun j : Fin 256 => score qf kc h r j) (fun j : Fin 256 => vc (ix2 j (col h d)))

end Cert.KernelIdeal.HeadSem

end
-- ==== Proof.PayValInit.lean ====
import proofs.«411452_j50508815401447_3_alg».proof.Proof.Gen.KernelIdeal.Skeleton
import proofs.«411452_j50508815401447_3_alg».proof.Proof.HeadSem
import proofs.«411452_j50508815401447_3_alg».proof.Proof.LibOnlineSoftmax
import proofs.«411452_j50508815401447_3_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Analysis.Real.Sqrt
import Mathlib.Algebra.BigOperators.Field
import Mathlib.Data.EReal.Operations
import Mathlib.Tactic.Ring
import Mathlib.Tactic.NormNum

noncomputable section

namespace Cert.KernelIdeal.PayVal

open Idealize.ShloMosaic Idealize.ShloMosaic.ValueIdx Cert.KernelIdeal Cert.KernelIdeal.Gen

theorem negInf_word : Ideal.ofBits .f32 0xFF800000#32 = (⊥ : EReal) := by
  simp [Ideal.ofBits, Ideal.ieee]

theorem eighth_word : Ideal.ofBits .f32 0x3E000000#32 = ((1/8 : ℝ) : EReal) := by
  simp [Ideal.ofBits, Ideal.ieee, -EReal.coe_mul]; norm_num

theorem pay2_apply (i : S512x16x1.Idx) : k1_pay2 (F := Ideal) i = (⊥ : EReal) := by
  unfold k1_pay2
  rw [shapeCast_self]
  exact negInf_word

theorem pay3_apply (i : S512x16x1.Idx) : k1_pay3 (F := Ideal) i = (0 : EReal) := by
  unfold k1_pay3
  rw [shapeCast_self]
  exact Ideal.ofBits_zero_f32

theorem pay4_apply (i : S512x16x64.Idx) : k1_pay4 (F := Ideal) i = (0 : EReal) := by
  unfold k1_pay4
  rw [shapeCast_self]
  exact Ideal.ofBits_zero_f32

theorem pay5_apply (v603 : S1x512x1024.Idx → EReal) (r : Fin 512) (c : Fin 1024) :
    k1_pay5 (F := Ideal) v603 (ix2 r c) = v603 (ix3 (0 : Fin 1) r c) * ((1/8 : ℝ) : EReal) := by
  unfold k1_pay5
  rw [shapeCast_self]
  show shapeCast S512x1024 v603 shapeCasts_S1x512x1024_S512x1024 (ix2 r c) * Ideal.ofBits .f32 0x3E000000#32 = _
  rw [eighth_word, shapeCast_1ab_ab_apply v603 _ r c]

theorem pay6_apply (v6 : S1x256x1024.Idx → EReal) (j : Fin 256) (c : Fin 1024) :
    k1_pay6 (F := Ideal) v6 (ix2 j c) = v6 (ix3 (0 : Fin 1) j c) := by
  unfold k1_pay6
  exact shapeCast_1ab_ab_apply v6 _ j c

theorem pay7_apply (v9 : S1x256x1024.Idx → EReal) (j : Fin 256) (c : Fin 1024) :
    k1_pay7 (F := Ideal) v9 (ix2 j c) = v9 (ix3 (0 : Fin 1) j c) := by
  unfold k1_pay7
  exact shapeCast_1ab_ab_apply v9 _ j c

theorem lhs_out_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_out_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_out_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_out_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

theorem out_product_apply (A : FVec Ideal S512x1024 .bf16) (B : FVec Ideal S1024x1024 .bf16) (r : Fin 512) (e : Fin 1024) :
    matmul dot_S512x1024_S1024x1024_S512x1024_1_1_0_0_n_n none A B (constant (F := Ideal) S512x1024 .f32 0x00000000#32) (ix2 r e)
      = ∑ f : Fin 1024, A (ix2 r f) * B (ix2 e f) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 r e) ((ValueIdx.contrEquiv1 dot_S512x1024_S1024x1024_S512x1024_1_1_0_0_n_n 1024 rfl rfl).symm k) = ix2 r k := funext fun a => Fin.ext (by
    match a with
    | ⟨0, _⟩ => exact lhs_out_0 _ _
    | ⟨1, _⟩ => exact (lhs_out_1 _ _).trans hk)
  have er : dot_S512x1024_S1024x1024_S512x1024_1_1_0_0_n_n.rhsIdx (ix2 r e) ((ValueIdx.contrEquiv1 dot_S512x1024_S1024x1024_S512x1024_1_1_0_0_n_n 1024 rfl rfl).symm k) = ix2 e k := funext fun a => Fin.ext (by
    match a with
    | ⟨0, _⟩ => exact rhs_out_0 _ _
    | ⟨1, _⟩ => exact (rhs_out_1 _ _).trans hk)
  rw [el, er]

theorem heads_flat_apply {α : Type} (X : S512x16x64.Idx → α) (r : Fin 512) (f : Fin 1024) :
    shapeCast S512x1024 X shapeCasts_S512x16x64_S512x1024 (ix2 r f) = X (ix3 r (Cert.Spec.headOf f) (Cert.Spec.coordOf f)) :=
  shapeCast_apply X _ _ _ (by
    rw [Shape.rowMajor_val_three, Shape.rowMajor_val_two]
    show (r.val * 16 + f.val / 64) * 64 + f.val % 64 = r.val * 1024 + f.val
    omega)

theorem per_head_apply {α : Type} (l : S512x16x1.Idx → α) (r : Fin 512) (h : Fin 16) (d : Fin 64) :
    broadcastTo S512x16x64 l broadcasts_S512x16x1_S512x16x64 (ix3 r h d) = l (ix3 r h (0 : Fin 1)) := by
  refine broadcastTo_apply l _ (ix3 r h d) (ix3 r h (0 : Fin 1)) fun ax => ?_
  match ax with
  | ⟨0, _⟩ => rfl
  | ⟨1, _⟩ => rfl
  | ⟨2, _⟩ => rfl

theorem bias_apply {α : Type} (b : S1024.Idx → α) (r : Fin 512) (e : Fin 1024) :
    broadcastTo S512x1024 (shapeCast S1x1024 b shapeCasts_S1024_S1x1024) broadcasts_S1x1024_S512x1024 (ix2 r e) = b (ix1 e) := by
  rw [broadcastTo_1b_ab_apply _ _ r e, shapeCast_a_1a_apply b _ (0 : Fin 1) e]

theorem pay1_apply (v591 : S512x16x64.Idx → EReal) (v592 : S512x16x1.Idx → EReal) (v597 : S1024x1024.Idx → EReal)
    (v600 : S1024.Idx → EReal) (r : Fin 512) (e : Fin 1024) :
    k1_pay1 (F := Ideal) v591 v592 v597 v600 (ix3 (0 : Fin 1) r e)
      = (∑ f : Fin 1024, Ideal.div (v591 (ix3 r (Cert.Spec.headOf f) (Cert.Spec.coordOf f)))
            (v592 (ix3 r (Cert.Spec.headOf f) (0 : Fin 1))) * v597 (ix2 e f)) + v600 (ix1 e) := by
  unfold k1_pay1
  rw [shapeCast_ab_1ab_apply _ _ (0 : Fin 1) r e, addf_apply, bias_apply v600 r e, shapeCast_self, out_product_apply]
  refine congrArg (· + v600 (ix1 e)) (Finset.sum_congr rfl fun f _ => ?_)
  rw [truncf_apply, heads_flat_apply, divf_apply, per_head_apply]

end Cert.KernelIdeal.PayVal

end
-- ==== Proof.ScratchC.lean ====
import proofs.«411452_j50508815401447_3_alg».proof.Proof.KI.R1
import proofs.«411452_j50508815401447_3_alg».proof.Proof.PayValInit
import proofs.«411452_j50508815401447_3_alg».proof.Proof.HeadSem
import Idealize.ShloMosaic.Lib.Pipeline.Value
import Idealize.ShloMosaic.Lib.Pipeline.FrameBody
import Idealize.ShloMosaic.Lib.WholeRead
import Idealize.ShloMosaic.Lib.QrPanel.Panel

noncomputable section

namespace Cert.KernelIdeal.ScratchVal

open Idealize.ShloMosaic Idealize.ShloMosaic.ValueIdx Idealize.ShloMosaic.TcCoe Idealize.ShloMosaic.QrPanel.Panel
open Cert.KernelIdeal Cert.KernelIdeal.Gen Cert.KernelIdeal.Hand Cert.KernelIdeal.PayVal

theorem hz1 : (![0] : Fin 1 → Nat) = fun _ => 0 := funext fun a => by fin_cases a <;> rfl

-- The whole-shape rectangle at zero offsets places every index at itself.
theorem idx_unit_zero (S : Shape) {off : Fin S.rank → Nat} (h : off = fun _ => 0) (inb : ∀ a, off a + S.size a ≤ S.size a)
    (y : S.Idx) : (Rect.unit off S.size inb).idx y = y := by
  subst h; funext a; apply Fin.ext; show 0 + 1 * (y a : Nat) = y a; omega

theorem out_at_C (V : (c : Dev nD) → (b : Ref sig .tc) → Buf (Elt Ideal) ((c : Thread nD τ).loc b)) (c : Dev nD) (t : Fin cfg1.N) (h1 : t.val % 8 = 7) (r : Fin 512) (e : Fin 1024) :
    (outsAt1 V c t.val t.isLt).1 (ix3 (0 : Fin 1) r e)
      = (∑ f : Fin 1024, Ideal.div ((outsAt1 V c t.val t.isLt).2.2.2.1 (ix3 r (Cert.Spec.headOf f) (Cert.Spec.coordOf f)))
            ((outsAt1 V c t.val t.isLt).2.2.1 (ix3 r (Cert.Spec.headOf f) (0 : Fin 1))) * iblk1 V c 3 t (ix2 e f)) + iblk1 V c 4 t (ix1 e) := by
  rw [outsAt1_C V c t (by omega) h1]
  simp only [outs1_C, out1_C_5, sout1_C_1, sout1_C_2, View.read_writes_junk_apply_eq_canon]
  unfold kernelRun1_C
  dsimp only
  rw [View.canon_unit_zero zeros3, pay1_apply]
  unfold kernelRun1_C.sl.v591 kernelRun1_C.sl.v592
  simp only [View.readCov_eq_canon', Memref.IsWhole.readAt_unread, idx_unit_zero S512x16x64 zeros3, idx_unit_zero S512x16x1 zeros3,
    idx_unit_zero S1024x1024 zeros2, idx_unit_zero S1024 hz1]

end Cert.KernelIdeal.ScratchVal

end
-- ==== Proof.KerSpec.lean ====
import proofs.«411452_j50508815401447_3_alg».proof.Proof.Spec

noncomputable section

namespace Cert.KerSpec

open Idealize.ShloMosaic Idealize.ShloMosaic.ValueIdx Cert.Spec Cert.OnlineSoftmax

variable (x : SX.Idx → EReal) (w : SW.Idx → EReal) (ow : SO.Idx → EReal) (ob : SB.Idx → EReal)

def tileKey (t : ℕ) (j : Fin 256) : Fin 2048 := ⟨(256 * t + j.val) % 2048, Nat.mod_lt _ (by norm_num)⟩

def scoreT (b : Fin 2) (h : Fin 16) (s : Fin 2048) (t : ℕ) (j : Fin 256) : EReal :=
  ∑ d : Fin 64, (q x w b h s d * ((1 / 8 : ℝ) : EReal)) * k x w b h (tileKey t j) d

def valT (b : Fin 2) (h : Fin 16) (d : Fin 64) (t : ℕ) (j : Fin 256) : EReal := v x w b h (tileKey t j) d

def st (b : Fin 2) (h : Fin 16) (s : Fin 2048) (d : Fin 64) (n : ℕ) : EReal × EReal × EReal :=
  run (J := Fin 256) (scoreT x w b h s) (valT x w b h d) n

def att (b : Fin 2) (s : Fin 2048) (h : Fin 16) (d : Fin 64) : EReal :=
  Ideal.div (st x w b h s d 8).2.2 (st x w b h s d 8).2.1

def out : SX.Idx → EReal := fun i =>
  (∑ f : Fin 1024, att x w (i 0) (i 1) (headOf f) (coordOf f) * ow (oi (i 2) f)) + ob (bi (i 2))

end Cert.KerSpec

end
-- ==== Proof.KerSpecArr.lean ====
import proofs.«411452_j50508815401447_3_alg».proof.Proof.KerSpec

noncomputable section

namespace Cert.KerSpec

open Idealize.ShloMosaic Idealize.ShloMosaic.ValueIdx Cert.Spec Cert.OnlineSoftmax

def colOf (h : Fin 16) (d : Fin 64) : Fin 1024 := ⟨64 * h.val + d.val, by omega⟩

theorem headOf_colOf (h : Fin 16) (d : Fin 64) : headOf (colOf h d) = h := by
  apply Fin.ext; simp only [headOf, colOf]; omega
theorem coordOf_colOf (h : Fin 16) (d : Fin 64) : coordOf (colOf h d) = d := by
  apply Fin.ext; simp only [coordOf, colOf]; omega

variable (qa ka va : SX.Idx → EReal) (wo : SO.Idx → EReal) (bo : SB.Idx → EReal)

def scoreA (b : Fin 2) (h : Fin 16) (s : Fin 2048) (t : ℕ) (j : Fin 256) : EReal :=
  ∑ d : Fin 64, (qa (xi b s (colOf h d)) * ((1 / 8 : ℝ) : EReal)) * ka (xi b (tileKey t j) (colOf h d))

def valA (b : Fin 2) (h : Fin 16) (d : Fin 64) (t : ℕ) (j : Fin 256) : EReal := va (xi b (tileKey t j) (colOf h d))

def stA (b : Fin 2) (h : Fin 16) (s : Fin 2048) (d : Fin 64) (n : ℕ) : EReal × EReal × EReal :=
  run (J := Fin 256) (scoreA qa ka b h s) (valA va b h d) n

def outOf : SX.Idx → EReal := fun i =>
  (∑ f : Fin 1024, Ideal.div (stA qa ka va (i 0) (headOf f) (i 1) (coordOf f) 8).2.2 (stA qa ka va (i 0) (headOf f) (i 1) (coordOf f) 8).2.1
      * wo (oi (i 2) f)) + bo (bi (i 2))

def qArr (x : SX.Idx → EReal) (w : SW.Idx → EReal) : SX.Idx → EReal := fun i => q x w (i 0) (headOf (i 2)) (i 1) (coordOf (i 2))
def kArr (x : SX.Idx → EReal) (w : SW.Idx → EReal) : SX.Idx → EReal := fun i => k x w (i 0) (headOf (i 2)) (i 1) (coordOf (i 2))
def vArr (x : SX.Idx → EReal) (w : SW.Idx → EReal) : SX.Idx → EReal := fun i => v x w (i 0) (headOf (i 2)) (i 1) (coordOf (i 2))

theorem stA_arr (x : SX.Idx → EReal) (w : SW.Idx → EReal) (b : Fin 2) (h : Fin 16) (s : Fin 2048) (d : Fin 64) (n : ℕ) :
    stA (qArr x w) (kArr x w) (vArr x w) b h s d n = st x w b h s d n := by
  unfold stA st
  congr 1 <;> funext t j <;>
    simp only [scoreA, scoreT, valA, valT, qArr, kArr, vArr, xi, ix3, headOf_colOf, coordOf_colOf]

theorem outOf_arr (x : SX.Idx → EReal) (w : SW.Idx → EReal) (ow : SO.Idx → EReal) (ob : SB.Idx → EReal) :
    outOf (qArr x w) (kArr x w) (vArr x w) ow ob = out x w ow ob := by
  funext i
  unfold outOf KerSpec.out KerSpec.att
  exact congrArg (· + ob (bi (i 2))) (Finset.sum_congr rfl fun f _ => by rw [stA_arr x w (i 0) (headOf f) (i 1) (coordOf f) 8])

end Cert.KerSpec

end
-- ==== Proof.TileSem.lean ====
import proofs.«411452_j50508815401447_3_alg».proof.Proof.HeadSem
import proofs.«411452_j50508815401447_3_alg».proof.Proof.KerSpecArr

noncomputable section

namespace Cert.TileSem

open Idealize.ShloMosaic Idealize.ShloMosaic.ValueIdx Cert.Spec Cert.OnlineSoftmax Cert.KerSpec
open Cert.KernelIdeal (S512x1024 S256x1024)
open Cert.KernelIdeal.HeadSem (col score mAfter lAfter aAfter)

abbrev qRow (g : Fin 4) (r : Fin 512) : Fin 2048 := ⟨512 * g.val + r.val, by omega⟩

abbrev kRow (ki : ℕ) (hki : ki < 8) (j : Fin 256) : Fin 2048 := ⟨256 * ki + j.val, by omega⟩

theorem tileKey_eq (ki : ℕ) (hki : ki < 8) (j : Fin 256) : tileKey ki j = kRow ki hki j :=
  Fin.ext (Nat.mod_eq_of_lt (by have := j.isLt; omega))

def qBlk (qa : SX.Idx → EReal) (b : Fin 2) (g : Fin 4) : S512x1024.Idx → EReal :=
  fun i => qa (xi b (qRow g (i 0)) (i 1)) * ((1 / 8 : ℝ) : EReal)

def kBlk (ka : SX.Idx → EReal) (b : Fin 2) (ki : ℕ) (hki : ki < 8) : S256x1024.Idx → EReal :=
  fun i => ka (xi b (kRow ki hki (i 0)) (i 1))

def vBlk (va : SX.Idx → EReal) (b : Fin 2) (ki : ℕ) (hki : ki < 8) : S256x1024.Idx → EReal :=
  fun i => va (xi b (kRow ki hki (i 0)) (i 1))

variable (qa ka va : SX.Idx → EReal) (wo : SO.Idx → EReal) (bo : SB.Idx → EReal)

theorem scores_eq (b : Fin 2) (g : Fin 4) (ki : ℕ) (hki : ki < 8) (h : Fin 16) (r : Fin 512) :
    (fun j : Fin 256 => score (qBlk qa b g) (kBlk ka b ki hki) h r j) = scoreA qa ka b h (qRow g r) ki := by
  funext j
  unfold score scoreA qBlk kBlk
  rw [tileKey_eq ki hki j]
  rfl

theorem vals_eq (b : Fin 2) (ki : ℕ) (hki : ki < 8) (h : Fin 16) (d : Fin 64) :
    (fun j : Fin 256 => vBlk va b ki hki (ix2 j (col h d))) = valA va b h d ki := by
  funext j
  unfold valA vBlk
  rw [tileKey_eq ki hki j]
  rfl

theorem run_ml_indep {J : Type} [Fintype J] (s v v' : ℕ → J → EReal) (n : ℕ) :
    (run s v n).1 = (run s v' n).1 ∧ (run s v n).2.1 = (run s v' n).2.1 := by
  induction n with
  | zero => exact ⟨rfl, rfl⟩
  | succ n ih =>
    rw [run_succ, run_succ]
    exact ⟨by rw [ih.1], by rw [ih.1, ih.2]⟩

theorem stA_fst_indep (b : Fin 2) (h : Fin 16) (s : Fin 2048) (d d' : Fin 64) (n : ℕ) :
    (stA qa ka va b h s d n).1 = (stA qa ka va b h s d' n).1 :=
  (run_ml_indep _ _ _ n).1

theorem stA_snd_indep (b : Fin 2) (h : Fin 16) (s : Fin 2048) (d d' : Fin 64) (n : ℕ) :
    (stA qa ka va b h s d n).2.1 = (stA qa ka va b h s d' n).2.1 :=
  (run_ml_indep _ _ _ n).2

theorem stA_succ (b : Fin 2) (h : Fin 16) (s : Fin 2048) (d : Fin 64) (n : ℕ) :
    stA qa ka va b h s d (n + 1)
      = (mNew (stA qa ka va b h s d n).1 (scoreA qa ka b h s n),
         lNew (stA qa ka va b h s d n).1 (stA qa ka va b h s d n).2.1 (scoreA qa ka b h s n),
         aNew (stA qa ka va b h s d n).1 (stA qa ka va b h s d n).2.2 (scoreA qa ka b h s n) (valA va b h d n)) := rfl

theorem mAfter_eq (b : Fin 2) (g : Fin 4) (ki : ℕ) (hki : ki < 8) (h : Fin 16) (d₀ d : Fin 64) (r : Fin 512) :
    mAfter (qBlk qa b g) (kBlk ka b ki hki) h (fun r' => (stA qa ka va b h (qRow g r') d₀ ki).1) r
      = (stA qa ka va b h (qRow g r) d (ki + 1)).1 := by
  show mNew (stA qa ka va b h (qRow g r) d₀ ki).1
      (fun j : Fin 256 => score (qBlk qa b g) (kBlk ka b ki hki) h r j) = _
  rw [scores_eq, stA_succ, stA_fst_indep qa ka va b h (qRow g r) d₀ d ki]

theorem lAfter_eq (b : Fin 2) (g : Fin 4) (ki : ℕ) (hki : ki < 8) (h : Fin 16) (d₀ d₁ d : Fin 64) (r : Fin 512) :
    lAfter (qBlk qa b g) (kBlk ka b ki hki) h (fun r' => (stA qa ka va b h (qRow g r') d₀ ki).1)
        (fun r' => (stA qa ka va b h (qRow g r') d₁ ki).2.1) r
      = (stA qa ka va b h (qRow g r) d (ki + 1)).2.1 := by
  show lNew (stA qa ka va b h (qRow g r) d₀ ki).1 (stA qa ka va b h (qRow g r) d₁ ki).2.1
      (fun j : Fin 256 => score (qBlk qa b g) (kBlk ka b ki hki) h r j) = _
  rw [scores_eq, stA_succ, stA_fst_indep qa ka va b h (qRow g r) d₀ d ki,
    stA_snd_indep qa ka va b h (qRow g r) d₁ d ki]

theorem aAfter_eq (b : Fin 2) (g : Fin 4) (ki : ℕ) (hki : ki < 8) (h : Fin 16) (d₀ : Fin 64) (r : Fin 512) (d : Fin 64) :
    aAfter (qBlk qa b g) (kBlk ka b ki hki) (vBlk va b ki hki) h (fun r' => (stA qa ka va b h (qRow g r') d₀ ki).1)
        (fun r' d' => (stA qa ka va b h (qRow g r') d' ki).2.2) r d
      = (stA qa ka va b h (qRow g r) d (ki + 1)).2.2 := by
  show aNew (stA qa ka va b h (qRow g r) d₀ ki).1 (stA qa ka va b h (qRow g r) d ki).2.2
      (fun j : Fin 256 => score (qBlk qa b g) (kBlk ka b ki hki) h r j)
      (fun j : Fin 256 => vBlk va b ki hki (ix2 j (col h d))) = _
  rw [scores_eq, vals_eq, stA_succ, stA_fst_indep qa ka va b h (qRow g r) d₀ d ki]

end Cert.TileSem

end
-- ==== Proof.InvariantCore.lean ====
import proofs.«411452_j50508815401447_3_alg».proof.Proof.TileSem

noncomputable section

namespace Cert.KernelIdeal.Invariant

open Idealize.ShloMosaic Idealize.ShloMosaic.ValueIdx Cert.Spec Cert.KerSpec Cert.TileSem Cert.OnlineSoftmax
open Cert.KernelIdeal (S512x1024 S256x1024 S512x16x1 S512x16x64)
open Cert.KernelIdeal.HeadSem (col score mAfter lAfter aAfter)

def bOf (t : ℕ) (ht : t < 64) : Fin 2 := ⟨t / 32, by omega⟩

def gOf (t : ℕ) : Fin 4 := ⟨t / 8 % 4, Nat.mod_lt _ (by norm_num)⟩

theorem bOf_pred (t : ℕ) (ht : t < 64) (h0 : t % 8 ≠ 0) : bOf (t - 1) (by omega) = bOf t ht :=
  Fin.ext (by show (t - 1) / 32 = t / 32; omega)

theorem gOf_pred (t : ℕ) (h0 : t % 8 ≠ 0) : gOf (t - 1) = gOf t :=
  Fin.ext (by show (t - 1) / 8 % 4 = t / 8 % 4; omega)

variable (qa ka va : SX.Idx → EReal)

structure Holds (t : ℕ) (ht : t < 64) (M L : S512x16x1.Idx → EReal) (A : S512x16x64.Idx → EReal)
    (Q : S512x1024.Idx → EReal) : Prop where
  m : ∀ (r : Fin 512) (h : Fin 16) (d : Fin 64),
    M (ix3 r h 0) = (stA qa ka va (bOf t ht) h (qRow (gOf t) r) d (t % 8 + 1)).1
  l : ∀ (r : Fin 512) (h : Fin 16) (d : Fin 64),
    L (ix3 r h 0) = (stA qa ka va (bOf t ht) h (qRow (gOf t) r) d (t % 8 + 1)).2.1
  a : ∀ (r : Fin 512) (h : Fin 16) (d : Fin 64),
    A (ix3 r h d) = (stA qa ka va (bOf t ht) h (qRow (gOf t) r) d (t % 8 + 1)).2.2
  q : ∀ (r : Fin 512) (f : Fin 1024),
    Q (ix2 r f) = qa (xi (bOf t ht) (qRow (gOf t) r) f) * ((1 / 8 : ℝ) : EReal)

theorem eq_qBlk (b : Fin 2) (g : Fin 4) (Q : S512x1024.Idx → EReal)
    (hQ : ∀ (r : Fin 512) (f : Fin 1024), Q (ix2 r f) = qa (xi b (qRow g r) f) * ((1 / 8 : ℝ) : EReal)) : Q = qBlk qa b g := by
  funext i
  obtain ⟨r, f, rfl⟩ : ∃ (r : Fin 512) (f : Fin 1024), i = ix2 r f := ⟨i 0, i 1, eq_ix2 i⟩
  exact hQ r f

theorem eq_kBlk (xa : SX.Idx → EReal) (b : Fin 2) (ki : ℕ) (hki : ki < 8) (K : S256x1024.Idx → EReal)
    (hK : ∀ (j : Fin 256) (f : Fin 1024), K (ix2 j f) = xa (xi b (kRow ki hki j) f)) : K = kBlk xa b ki hki := by
  funext i
  obtain ⟨j, f, rfl⟩ : ∃ (j : Fin 256) (f : Fin 1024), i = ix2 j f := ⟨i 0, i 1, eq_ix2 i⟩
  exact hK j f

-- One tile's update: the key and value tiles of point t, and the running max, sum and accumulator after it.
structure Tile (t : ℕ) (ht : t < 64) (M0 L0 M L : S512x16x1.Idx → EReal) (A0 A : S512x16x64.Idx → EReal)
    (Q : S512x1024.Idx → EReal) (K W : S256x1024.Idx → EReal) : Prop where
  k : ∀ (j : Fin 256) (f : Fin 1024), K (ix2 j f) = ka (xi (bOf t ht) (kRow (t % 8) (Nat.mod_lt _ (by norm_num)) j) f)
  w : ∀ (j : Fin 256) (f : Fin 1024), W (ix2 j f) = va (xi (bOf t ht) (kRow (t % 8) (Nat.mod_lt _ (by norm_num)) j) f)
  m : ∀ (r : Fin 512) (h : Fin 16), M (ix3 r h 0) = mAfter Q K h (fun r => M0 (ix3 r h 0)) r
  l : ∀ (r : Fin 512) (h : Fin 16), L (ix3 r h 0) = lAfter Q K h (fun r => M0 (ix3 r h 0)) (fun r => L0 (ix3 r h 0)) r
  a : ∀ (r : Fin 512) (h : Fin 16) (d : Fin 64),
    A (ix3 r h d) = aAfter Q K W h (fun r => M0 (ix3 r h 0)) (fun r d => A0 (ix3 r h d)) r d

theorem holds_step (t : ℕ) (ht : t < 64) (M0 L0 M L : S512x16x1.Idx → EReal) (A0 A : S512x16x64.Idx → EReal)
    (Q : S512x1024.Idx → EReal) (K W : S256x1024.Idx → EReal)
    (hQ : ∀ (r : Fin 512) (f : Fin 1024), Q (ix2 r f) = qa (xi (bOf t ht) (qRow (gOf t) r) f) * ((1 / 8 : ℝ) : EReal))
    (hM0 : ∀ (r : Fin 512) (h : Fin 16) (d : Fin 64), M0 (ix3 r h 0) = (stA qa ka va (bOf t ht) h (qRow (gOf t) r) d (t % 8)).1)
    (hL0 : ∀ (r : Fin 512) (h : Fin 16) (d : Fin 64), L0 (ix3 r h 0) = (stA qa ka va (bOf t ht) h (qRow (gOf t) r) d (t % 8)).2.1)
    (hA0 : ∀ (r : Fin 512) (h : Fin 16) (d : Fin 64), A0 (ix3 r h d) = (stA qa ka va (bOf t ht) h (qRow (gOf t) r) d (t % 8)).2.2)
    (T : Tile ka va t ht M0 L0 M L A0 A Q K W) :
    Holds qa ka va t ht M L A Q := by
  have eQ := eq_qBlk qa (bOf t ht) (gOf t) Q hQ
  have eK := eq_kBlk ka (bOf t ht) (t % 8) (Nat.mod_lt _ (by norm_num)) K T.k
  have eW := eq_kBlk va (bOf t ht) (t % 8) (Nat.mod_lt _ (by norm_num)) W T.w
  subst eQ eK eW
  refine ⟨fun r h d => ?_, fun r h d => ?_, fun r h d => ?_, hQ⟩
  · rw [T.m r h, funext fun r' => hM0 r' h d]
    exact mAfter_eq qa ka va (bOf t ht) (gOf t) (t % 8) (Nat.mod_lt _ (by norm_num)) h d d r
  · rw [T.l r h, funext fun r' => hM0 r' h d, funext fun r' => hL0 r' h d]
    exact lAfter_eq qa ka va (bOf t ht) (gOf t) (t % 8) (Nat.mod_lt _ (by norm_num)) h d d d r
  · rw [T.a r h d, funext fun r' => hM0 r' h d,
      show (fun (r' : Fin 512) (d' : Fin 64) => A0 (ix3 r' h d')) = fun r' d' => (stA qa ka va (bOf t ht) h (qRow (gOf t) r') d' (t % 8)).2.2
        from funext fun r' => funext fun d' => hA0 r' h d']
    exact aAfter_eq qa ka va (bOf t ht) (gOf t) (t % 8) (Nat.mod_lt _ (by norm_num)) h d r d

theorem holds_first (t : ℕ) (ht : t < 64) (h0 : t % 8 = 0) (M0 L0 M L : S512x16x1.Idx → EReal) (A0 A : S512x16x64.Idx → EReal)
    (Q : S512x1024.Idx → EReal) (K W : S256x1024.Idx → EReal)
    (hQ : ∀ (r : Fin 512) (f : Fin 1024), Q (ix2 r f) = qa (xi (bOf t ht) (qRow (gOf t) r) f) * ((1 / 8 : ℝ) : EReal))
    (hM0 : ∀ (r : Fin 512) (h : Fin 16), M0 (ix3 r h 0) = ⊥)
    (hL0 : ∀ (r : Fin 512) (h : Fin 16), L0 (ix3 r h 0) = 0)
    (hA0 : ∀ (r : Fin 512) (h : Fin 16) (d : Fin 64), A0 (ix3 r h d) = 0)
    (T : Tile ka va t ht M0 L0 M L A0 A Q K W) :
    Holds qa ka va t ht M L A Q := by
  have e0 : ∀ (h : Fin 16) (r : Fin 512) (d : Fin 64), stA qa ka va (bOf t ht) h (qRow (gOf t) r) d (t % 8) = (⊥, 0, 0) := fun h r d => by
    rw [h0]; rfl
  exact holds_step qa ka va t ht M0 L0 M L A0 A Q K W hQ
    (fun r h d => by rw [e0]; exact hM0 r h) (fun r h d => by rw [e0]; exact hL0 r h) (fun r h d => by rw [e0]; exact hA0 r h d) T

theorem holds_next (t : ℕ) (ht : t < 64) (h0 : t % 8 ≠ 0) (M0 L0 M L : S512x16x1.Idx → EReal) (A0 A : S512x16x64.Idx → EReal)
    (Q0 Q : S512x1024.Idx → EReal) (K W : S256x1024.Idx → EReal)
    (prev : Holds qa ka va (t - 1) (by omega) M0 L0 A0 Q0)
    (hQ : ∀ (r : Fin 512) (f : Fin 1024), Q (ix2 r f) = Q0 (ix2 r f))
    (T : Tile ka va t ht M0 L0 M L A0 A Q K W) :
    Holds qa ka va t ht M L A Q := by
  have eb := bOf_pred t ht h0
  have eg := gOf_pred t h0
  have ek : (t - 1) % 8 + 1 = t % 8 := by omega
  have pm := prev.m; have pl := prev.l; have pa := prev.a; have pq := prev.q
  rw [eb, eg, ek] at pm pl pa
  rw [eb, eg] at pq
  exact holds_step qa ka va t ht M0 L0 M L A0 A Q K W (fun r f => (hQ r f).trans (pq r f)) pm pl pa T

end Cert.KernelIdeal.Invariant

end
-- ==== Proof.LibPlainProduct.lean ====
import Idealize.ShloMosaic.PureOps.Ideal.Laws
import Idealize.ShloMosaic.Lib.ValueIdx

noncomputable section

open scoped BigOperators

namespace Cert.Lib.PlainProduct

open Idealize.ShloMosaic Idealize.ShloMosaic.ValueIdx

variable {M K N : Nat}

structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem contr_rank (h : IsPlain D) : D.contr.rank = 1 := by
  rw [D.rank_contr, h.lc]; rfl

theorem contr_size (h : IsPlain D) (h0 : 0 < D.contr.rank) : D.contr.size ⟨0, h0⟩ = K := by
  rw [D.size_contr 0 (by rw [h.lc]; exact Nat.one_pos)]
  simp only [h.lc, List.getElem_cons_zero]
  rfl

private theorem coord_congr {s : Shape} (j : s.Idx) (a b : Nat) (ha : a < s.rank) (hb : b < s.rank) (e : a = b) :
    (j ⟨a, ha⟩).val = (j ⟨b, hb⟩).val := by subst e; rfl

theorem lhsIdx_row (h : IsPlain D) (j : (⟨2, ![M, N]⟩ : Shape).Idx) (k : D.contr.Idx) :
    (D.lhsIdx j k 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by simp [h.lb, h.ln])

theorem lhsIdx_col (h : IsPlain D) (j : (⟨2, ![M, N]⟩ : Shape).Idx) (k : D.contr.Idx) :
    (D.lhsIdx j k 1).val = (k ⟨0, by rw [contr_rank h]; exact Nat.one_pos⟩).val :=
  D.lhsIdx_val_of_single h.lc j k

theorem rhsIdx_row (h : IsPlain D) (j : (⟨2, ![M, N]⟩ : Shape).Idx) (k : D.contr.Idx) :
    (D.rhsIdx j k 0).val = (k ⟨0, by rw [contr_rank h]; exact Nat.one_pos⟩).val :=
  D.rhsIdx_val_of_single h.rc j k

theorem rhsIdx_col (h : IsPlain D) (j : (⟨2, ![M, N]⟩ : Shape).Idx) (k : D.contr.Idx) :
    (D.rhsIdx j k 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by simp [h.lb, h.ln, h.rn])

theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = ∑ k : Fin K, l (ix2 p k) * r (ix2 k q) := by
  have hr := contr_rank h
  have hs : D.contr.size ⟨0, by omega⟩ = K := contr_size h _
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row h _ _
    | ⟨1, _⟩ => exact (lhsIdx_col h _ _).trans hk)
  have er : D.rhsIdx (ix2 p q) ((contrEquiv1 D K hr hs).symm k) = ix2 k q := funext fun a => Fin.ext (by
    match a with
    | ⟨0, _⟩ => exact (rhsIdx_row h _ _).trans hk
    | ⟨1, _⟩ => exact rhsIdx_col h _ _)
  rw [el, er]

theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply]
  exact sum_contr h l r p q

theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply]
  exact sum_contr h l r p q

end Cert.Lib.PlainProduct

end
-- ==== Proof.PayValA.lean ====
import proofs.«411452_j50508815401447_3_alg».proof.Proof.Gen.KernelIdeal.Skeleton
import proofs.«411452_j50508815401447_3_alg».proof.Proof.HeadSem
import proofs.«411452_j50508815401447_3_alg».proof.Proof.LibPlainProduct
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.KernelIdeal.Gen Cert.OnlineSoftmax Cert.KernelIdeal.HeadSem

namespace HeadA

variable {α : Type}

-- A unit axis adds nothing to a row-major position, so a cast that inserts or drops one moves no entry.
theorem shapeCast_a_a1_apply {a : ℕ} (x : (⟨1, ![a]⟩ : Shape).Idx → α) (h : (⟨1, ![a]⟩ : Shape).ShapeCasts ⟨2, ![a, 1]⟩)
    (r : Fin a) : shapeCast ⟨2, ![a, 1]⟩ x h (ix2 r 0) = x (ix1 r) :=
  shapeCast_apply x h _ _ (by
    rw [Shape.rowMajor_val_two, Shape.rowMajor_val_one]
    show r.val = r.val * 1 + 0
    omega)

theorem shapeCast_a11_a1_apply {a : ℕ} (x : (⟨3, ![a, 1, 1]⟩ : Shape).Idx → α) (h : (⟨3, ![a, 1, 1]⟩ : Shape).ShapeCasts ⟨2, ![a, 1]⟩)
    (r : Fin a) : shapeCast ⟨2, ![a, 1]⟩ x h (ix2 r 0) = x (ix3 r 0 0) :=
  shapeCast_apply x h _ _ (by
    rw [Shape.rowMajor_val_three, Shape.rowMajor_val_two]
    show (r.val * 1 + 0) * 1 + 0 = r.val * 1 + 0
    omega)

theorem shapeCast_a1_a11_apply {a : ℕ} (x : (⟨2, ![a, 1]⟩ : Shape).Idx → α) (h : (⟨2, ![a, 1]⟩ : Shape).ShapeCasts ⟨3, ![a, 1, 1]⟩)
    (r : Fin a) : shapeCast ⟨3, ![a, 1, 1]⟩ x h (ix3 r 0 0) = x (ix2 r 0) :=
  shapeCast_apply x h _ _ (by
    rw [Shape.rowMajor_val_three, Shape.rowMajor_val_two]
    show r.val * 1 + 0 = (r.val * 1 + 0) * 1 + 0
    omega)

theorem shapeCast_a1b_ab_apply {a b : ℕ} (x : (⟨3, ![a, 1, b]⟩ : Shape).Idx → α) (h : (⟨3, ![a, 1, b]⟩ : Shape).ShapeCasts ⟨2, ![a, b]⟩)
    (r : Fin a) (d : Fin b) : shapeCast ⟨2, ![a, b]⟩ x h (ix2 r d) = x (ix3 r 0 d) :=
  shapeCast_apply x h _ _ (by
    rw [Shape.rowMajor_val_three, Shape.rowMajor_val_two]
    show (r.val * 1 + 0) * b + d.val = r.val * b + d.val
    rw [Nat.mul_one, Nat.add_zero])

theorem shapeCast_ab_a1b_apply {a b : ℕ} (x : (⟨2, ![a, b]⟩ : Shape).Idx → α) (h : (⟨2, ![a, b]⟩ : Shape).ShapeCasts ⟨3, ![a, 1, b]⟩)
    (r : Fin a) (d : Fin b) : shapeCast ⟨3, ![a, 1, b]⟩ x h (ix3 r 0 d) = x (ix2 r d) :=
  shapeCast_apply x h _ _ (by
    rw [Shape.rowMajor_val_three, Shape.rowMajor_val_two]
    show r.val * b + d.val = (r.val * 1 + 0) * b + d.val
    rw [Nat.mul_one, Nat.add_zero])

-- A column spread over the rows of a matrix: every entry of row r is the column's entry r.
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r 0) := by
  refine broadcastTo_apply v h (ix2 r c) (ix2 r 0) fun ax => ?_
  match ax with
  | ⟨0, _⟩ =>
    show r.val = if a = 1 then 0 else r.val
    split
    · have := r.isLt; omega
    · rfl
  | ⟨1, _⟩ => rfl

theorem row_lift (r : Fin 512) (j : Fin 256) : reduces_S512x256_S512.lift (ix1 r) j = ix2 r j :=
  funext fun a => Fin.ext (by
    match a with
    | ⟨0, _⟩ => rfl
    | ⟨1, _⟩ => rfl)

-- Reducing the second axis of a matrix: entry r of the result is the sum, or the maximum from −∞, over row r.
theorem rowSum_apply (x : FVec Ideal S512x256 .f32) (r : Fin 512) :
    multiReduction .add [1] S512 x 0x00000000#32 reduces_S512x256_S512 (.inl rfl) rfl (ix1 r) = ∑ j : Fin 256, x (ix2 r j) :=
  (Ideal.multiReduction_add_single x _ _ _ _ _).trans (Finset.sum_congr rfl fun j _ => congrArg x (row_lift r j))

theorem rowMax_apply (x : FVec Ideal S512x256 .f32) (r : Fin 512) :
    multiReduction .maximumf [1] S512 x 0xFF800000#32 reduces_S512x256_S512 (.inl rfl) rfl (ix1 r)
      = (Finset.univ : Finset (Fin 256)).fold max ⊥ fun j => x (ix2 r j) := by
  refine (Ideal.multiReduction_maximumf_single x _ _ _ _ _).trans ?_
  have hb : FloatOps.ofBits (F := Ideal) .f32 0xFF800000#32 = (⊥ : EReal) := by simp [Ideal.ofBits, Ideal.ieee]
  have hf : (x ∘ reduces_S512x256_S512.lift (ix1 r)) = fun j : Fin 256 => x (ix2 r j) :=
    funext fun j => congrArg x (row_lift r j)
  rw [hb, hf]
  rfl

theorem qk_lhs_0 (i : S512x256.Idx) (q : dot_S512x64_S256x64_S512x256_1_1_0_0_n_n.contr.Idx) :
    (dot_S512x64_S256x64_S512x256_1_1_0_0_n_n.lhsIdx i q 0).val = (i 0).val := by
  unfold DotDims.lhsIdx
  rw [dif_neg (by decide), dif_pos (by decide)]
  rfl
theorem qk_rhs_0 (i : S512x256.Idx) (q : dot_S512x64_S256x64_S512x256_1_1_0_0_n_n.contr.Idx) :
    (dot_S512x64_S256x64_S512x256_1_1_0_0_n_n.rhsIdx i q 0).val = (i 1).val := by
  unfold DotDims.rhsIdx
  rw [dif_neg (by decide), dif_pos (by decide)]
  rfl

-- Both operands contract their second axis: entry (r, j) is the inner product of row r of the first with row j of the second.
theorem qk_matmul_apply (l : FVec Ideal S512x64 .bf16) (k : FVec Ideal S256x64 .bf16) (r : Fin 512) (j : Fin 256) :
    matmul dot_S512x64_S256x64_S512x256_1_1_0_0_n_n none l k (constant (F := Ideal) S512x256 .f32 0x00000000#32) (ix2 r j)
      = ∑ d : Fin 64, l (ix2 r d) * k (ix2 j d) := by
  simp only [matmul]
  rw [Ideal.matmul_constant_zero_apply, ← Equiv.sum_comp (contrEquiv1 dot_S512x64_S256x64_S512x256_1_1_0_0_n_n 64 rfl rfl).symm]
  refine Finset.sum_congr rfl fun d _ => ?_
  have hd := contrEquiv1_symm_val dot_S512x64_S256x64_S512x256_1_1_0_0_n_n 64 rfl rfl d
  have el : dot_S512x64_S256x64_S512x256_1_1_0_0_n_n.lhsIdx (ix2 r j) ((contrEquiv1 dot_S512x64_S256x64_S512x256_1_1_0_0_n_n 64 rfl rfl).symm d) = ix2 r d := funext fun a => Fin.ext (by
    match a with
    | ⟨0, _⟩ => exact qk_lhs_0 _ _
    | ⟨1, _⟩ => exact (dot_S512x64_S256x64_S512x256_1_1_0_0_n_n.lhsIdx_val_of_single rfl _ _).trans hd)
  have er : dot_S512x64_S256x64_S512x256_1_1_0_0_n_n.rhsIdx (ix2 r j) ((contrEquiv1 dot_S512x64_S256x64_S512x256_1_1_0_0_n_n 64 rfl rfl).symm d) = ix2 j d := funext fun a => Fin.ext (by
    match a with
    | ⟨0, _⟩ => exact qk_rhs_0 _ _
    | ⟨1, _⟩ => exact (dot_S512x64_S256x64_S512x256_1_1_0_0_n_n.rhsIdx_val_of_single rfl _ _).trans hd)
  rw [el, er]

theorem pv_matmul_apply (p : FVec Ideal S512x256 .bf16) (v : FVec Ideal S256x64 .bf16) (r : Fin 512) (d : Fin 64) :
    matmul dot_S512x256_S256x64_S512x64_1_0_0_1_n_n none p v (constant (F := Ideal) S512x64 .f32 0x00000000#32) (ix2 r d)
      = ∑ j : Fin 256, p (ix2 r j) * v (ix2 j d) :=
  Cert.Lib.PlainProduct.matmul_zero_apply (D := dot_S512x256_S256x64_S512x64_1_0_0_1_n_n) ⟨rfl, rfl, rfl, rfl, rfl, rfl⟩ none p v r d

theorem exp_apply {s : Shape} {φ : FTy} (x : FVec Ideal s φ) (i : s.Idx) : exp x i = Ideal.exp (x i) := rfl

-- Head h owns columns 64·h … 64·h + 63 of the 1024, whatever the number of rows.
theorem head_slices {n : ℕ} (h : Fin 16) : (⟨2, ![n, 1024]⟩ : Shape).Slices ![0, 64 * h.val] ⟨2, ![n, 64]⟩ :=
  ⟨rfl, fun a => by
    match a with
    | ⟨0, _⟩ => show 0 + n ≤ n; omega
    | ⟨1, _⟩ => show 64 * h.val + 64 ≤ 1024; omega⟩

section Head

variable (h : Fin 16) (qf : FVec Ideal S512x1024 .bf16) (kc vc : FVec Ideal S256x1024 .bf16)
  (vm vl : FVec Ideal S512x1x1 .f32) (va : FVec Ideal S512x1x64 .f32)

-- What head h computes from its 64 columns of the query block, the key tile and the value tile.
def scoresT : FVec Ideal S512x256 .f32 :=
  matmul dot_S512x64_S256x64_S512x256_1_1_0_0_n_n none (extractStridedSlice S512x64 ![0, 64 * h.val] qf (head_slices h))
    (extractStridedSlice S256x64 ![0, 64 * h.val] kc (head_slices h)) (constant S512x256 .f32 0x00000000#32)

def maxT : FVec Ideal S512x1 .f32 :=
  maximumf (shapeCast S512x1 vm shapeCasts_S512x1x1_S512x1)
    (shapeCast S512x1 (multiReduction .maximumf [1] S512 (scoresT h qf kc) 0xFF800000#32 reduces_S512x256_S512 (.inl rfl) rfl)
      shapeCasts_S512_S512x1)

def rescaleT : FVec Ideal S512x1 .f32 :=
  exp (subf (shapeCast S512x1 vm shapeCasts_S512x1x1_S512x1) (maxT h qf kc vm))

def weightsT : FVec Ideal S512x256 .f32 :=
  exp (subf (scoresT h qf kc) (broadcastTo S512x256 (maxT h qf kc vm) broadcasts_S512x1_S512x256))

def normT : FVec Ideal S512x1 .f32 :=
  addf (mulf (rescaleT h qf kc vm) (shapeCast S512x1 vl shapeCasts_S512x1x1_S512x1))
    (shapeCast S512x1 (multiReduction .add [1] S512 (weightsT h qf kc vm) 0x00000000#32 reduces_S512x256_S512 (.inl rfl) rfl)
      shapeCasts_S512_S512x1)

def accT : FVec Ideal S512x1x64 .f32 :=
  shapeCast S512x1x64
    (addf (mulf (broadcastTo S512x64 (rescaleT h qf kc vm) broadcasts_S512x1_S512x64)
        (shapeCast S512x64 va shapeCasts_S512x1x64_S512x64))
      (matmul dot_S512x256_S256x64_S512x64_1_0_0_1_n_n none (truncf .bf16 (weightsT h qf kc vm) bitsLt_bf16_f32)
        (extractStridedSlice S256x64 ![0, 64 * h.val] vc (head_slices h)) (constant S512x64 .f32 0x00000000#32)))
    shapeCasts_S512x64_S512x1x64

theorem scoresT_apply (r : Fin 512) (j : Fin 256) : scoresT h qf kc (ix2 r j) = score qf kc h r j := by
  unfold scoresT score
  rw [qk_matmul_apply]
  refine Finset.sum_congr rfl fun d _ => ?_
  rw [slice2_axis1_eq, slice2_axis1_eq]
  rfl

theorem maxT_apply (r : Fin 512) : maxT h qf kc vm (ix2 r 0) = mAfter qf kc h (fun r => vm (ix3 r 0 0)) r := by
  unfold maxT mAfter mNew
  rw [maximumf_apply, shapeCast_a11_a1_apply, shapeCast_a_a1_apply, rowMax_apply]
  simp only [scoresT_apply]

theorem rescaleT_apply (r : Fin 512) :
    rescaleT h qf kc vm (ix2 r 0) = Ideal.exp (vm (ix3 r 0 0) - mAfter qf kc h (fun r => vm (ix3 r 0 0)) r) := by
  unfold rescaleT
  rw [exp_apply, subf_apply, shapeCast_a11_a1_apply, maxT_apply]

theorem weightsT_apply (r : Fin 512) (j : Fin 256) :
    weightsT h qf kc vm (ix2 r j) = Ideal.exp (score qf kc h r j - mAfter qf kc h (fun r => vm (ix3 r 0 0)) r) := by
  unfold weightsT
  rw [exp_apply, subf_apply, broadcastTo_a1_ab_apply, scoresT_apply, maxT_apply]

theorem normT_apply (r : Fin 512) :
    normT h qf kc vm vl (ix2 r 0) = lAfter qf kc h (fun r => vm (ix3 r 0 0)) (fun r => vl (ix3 r 0 0)) r := by
  unfold normT lAfter lNew
  rw [addf_apply, mulf_apply, rescaleT_apply, shapeCast_a11_a1_apply, shapeCast_a_a1_apply, rowSum_apply]
  simp only [weightsT_apply]
  rfl

theorem accT_apply (r : Fin 512) (d : Fin 64) :
    accT h qf kc vc vm va (ix3 r 0 d) = aAfter qf kc vc h (fun r => vm (ix3 r 0 0)) (fun r d => va (ix3 r 0 d)) r d := by
  unfold accT aAfter aNew
  rw [shapeCast_ab_a1b_apply, addf_apply, mulf_apply, broadcastTo_a1_ab_apply, rescaleT_apply, shapeCast_a1b_ab_apply,
    pv_matmul_apply]
  simp only [truncf_apply, weightsT_apply, slice2_axis1_eq]
  rfl

theorem lStoreT_apply (r : Fin 512) :
    shapeCast S512x1x1 (normT h qf kc vm vl) shapeCasts_S512x1_S512x1x1 (ix3 r 0 0)
      = lAfter qf kc h (fun r => vm (ix3 r 0 0)) (fun r => vl (ix3 r 0 0)) r := by
  rw [shapeCast_a1_a11_apply, normT_apply]

theorem mStoreT_apply (r : Fin 512) :
    shapeCast S512x1x1 (maxT h qf kc vm) shapeCasts_S512x1_S512x1x1 (ix3 r 0 0)
      = mAfter qf kc h (fun r => vm (ix3 r 0 0)) r := by
  rw [shapeCast_a1_a11_apply, maxT_apply]

end Head

end HeadA

theorem l_store_0 (qf : S512x1024.Idx → EReal) (v6 : S1x256x1024.Idx → EReal) (vm vl : S512x1x1.Idx → EReal) (r : Fin 512) :
    k1_pay14 (F := Ideal) v6 qf vm vl (ix3 r 0 0)
      = lAfter qf (k1_pay6 (F := Ideal) v6) (0 : Fin 16) (fun r => vm (ix3 r 0 0)) (fun r => vl (ix3 r 0 0)) r :=
  HeadA.lStoreT_apply 0 qf (k1_pay6 (F := Ideal) v6) vm vl r

theorem m_store_0 (qf : S512x1024.Idx → EReal) (v6 : S1x256x1024.Idx → EReal) (vm : S512x1x1.Idx → EReal) (r : Fin 512) :
    k1_pay16 (F := Ideal) (k1_pay11 (F := Ideal) v6 qf vm) (ix3 r 0 0)
      = mAfter qf (k1_pay6 (F := Ideal) v6) (0 : Fin 16) (fun r => vm (ix3 r 0 0)) r :=
  HeadA.mStoreT_apply 0 qf (k1_pay6 (F := Ideal) v6) vm r

theorem a_store_0 (qf : S512x1024.Idx → EReal) (v6 v9 : S1x256x1024.Idx → EReal) (vm : S512x1x1.Idx → EReal)
    (va : S512x1x64.Idx → EReal) (r : Fin 512) (d : Fin 64) :
    k1_pay15 (F := Ideal) (k1_pay8 (F := Ideal) v9) (k1_pay12 (F := Ideal) v6 qf vm) (k1_pay13 (F := Ideal) v6 qf vm) va (ix3 r 0 d)
      = aAfter qf (k1_pay6 (F := Ideal) v6) (k1_pay7 (F := Ideal) v9) (0 : Fin 16) (fun r => vm (ix3 r 0 0))
          (fun r d => va (ix3 r 0 d)) r d :=
  HeadA.accT_apply 0 qf (k1_pay6 (F := Ideal) v6)
    (k1_pay7 (F := Ideal) v9) vm va r d

theorem l_store_1 (qf : S512x1024.Idx → EReal) (kc : S256x1024.Idx → EReal) (vm vl : S512x1x1.Idx → EReal) (r : Fin 512) :
    k1_pay24 (F := Ideal) (k1_pay23 (F := Ideal) kc qf vm vl) (ix3 r 0 0)
      = lAfter qf kc (1 : Fin 16) (fun r => vm (ix3 r 0 0)) (fun r => vl (ix3 r 0 0)) r :=
  HeadA.lStoreT_apply 1 qf kc vm vl r

theorem m_store_1 (qf : S512x1024.Idx → EReal) (kc : S256x1024.Idx → EReal) (vm : S512x1x1.Idx → EReal) (r : Fin 512) :
    k1_pay26 (F := Ideal) (k1_pay20 (F := Ideal) kc qf vm) (ix3 r 0 0)
      = mAfter qf kc (1 : Fin 16) (fun r => vm (ix3 r 0 0)) r :=
  HeadA.mStoreT_apply 1 qf kc vm r

theorem a_store_1 (qf : S512x1024.Idx → EReal) (kc vc : S256x1024.Idx → EReal) (vm : S512x1x1.Idx → EReal)
    (va : S512x1x64.Idx → EReal) (r : Fin 512) (d : Fin 64) :
    k1_pay25 (F := Ideal) (k1_pay17 (F := Ideal) vc) (k1_pay21 (F := Ideal) kc qf vm) (k1_pay22 (F := Ideal) kc qf vm) va (ix3 r 0 d)
      = aAfter qf kc vc (1 : Fin 16) (fun r => vm (ix3 r 0 0)) (fun r d => va (ix3 r 0 d)) r d :=
  HeadA.accT_apply 1 qf kc vc vm va r d

theorem l_store_2 (qf : S512x1024.Idx → EReal) (kc : S256x1024.Idx → EReal) (vm vl : S512x1x1.Idx → EReal) (r : Fin 512) :
    k1_pay34 (F := Ideal) (k1_pay33 (F := Ideal) kc qf vm vl) (ix3 r 0 0)
      = lAfter qf kc (2 : Fin 16) (fun r => vm (ix3 r 0 0)) (fun r => vl (ix3 r 0 0)) r :=
  HeadA.lStoreT_apply 2 qf kc vm vl r

theorem m_store_2 (qf : S512x1024.Idx → EReal) (kc : S256x1024.Idx → EReal) (vm : S512x1x1.Idx → EReal) (r : Fin 512) :
    k1_pay36 (F := Ideal) (k1_pay30 (F := Ideal) kc qf vm) (ix3 r 0 0)
      = mAfter qf kc (2 : Fin 16) (fun r => vm (ix3 r 0 0)) r :=
  HeadA.mStoreT_apply 2 qf kc vm r

theorem a_store_2 (qf : S512x1024.Idx → EReal) (kc vc : S256x1024.Idx → EReal) (vm : S512x1x1.Idx → EReal)
    (va : S512x1x64.Idx → EReal) (r : Fin 512) (d : Fin 64) :
    k1_pay35 (F := Ideal) (k1_pay27 (F := Ideal) vc) (k1_pay31 (F := Ideal) kc qf vm) (k1_pay32 (F := Ideal) kc qf vm) va (ix3 r 0 d)
      = aAfter qf kc vc (2 : Fin 16) (fun r => vm (ix3 r 0 0)) (fun r d => va (ix3 r 0 d)) r d :=
  HeadA.accT_apply 2 qf kc vc vm va r d

theorem l_store_3 (qf : S512x1024.Idx → EReal) (kc : S256x1024.Idx → EReal) (vm vl : S512x1x1.Idx → EReal) (r : Fin 512) :
    k1_pay44 (F := Ideal) (k1_pay43 (F := Ideal) kc qf vm vl) (ix3 r 0 0)
      = lAfter qf kc (3 : Fin 16) (fun r => vm (ix3 r 0 0)) (fun r => vl (ix3 r 0 0)) r :=
  HeadA.lStoreT_apply 3 qf kc vm vl r

theorem m_store_3 (qf : S512x1024.Idx → EReal) (kc : S256x1024.Idx → EReal) (vm : S512x1x1.Idx → EReal) (r : Fin 512) :
    k1_pay46 (F := Ideal) (k1_pay40 (F := Ideal) kc qf vm) (ix3 r 0 0)
      = mAfter qf kc (3 : Fin 16) (fun r => vm (ix3 r 0 0)) r :=
  HeadA.mStoreT_apply 3 qf kc vm r

theorem a_store_3 (qf : S512x1024.Idx → EReal) (kc vc : S256x1024.Idx → EReal) (vm : S512x1x1.Idx → EReal)
    (va : S512x1x64.Idx → EReal) (r : Fin 512) (d : Fin 64) :
    k1_pay45 (F := Ideal) (k1_pay37 (F := Ideal) vc) (k1_pay41 (F := Ideal) kc qf vm) (k1_pay42 (F := Ideal) kc qf vm) va (ix3 r 0 d)
      = aAfter qf kc vc (3 : Fin 16) (fun r => vm (ix3 r 0 0)) (fun r d => va (ix3 r 0 d)) r d :=
  HeadA.accT_apply 3 qf kc vc vm va r d

theorem l_store_4 (qf : S512x1024.Idx → EReal) (kc : S256x1024.Idx → EReal) (vm vl : S512x1x1.Idx → EReal) (r : Fin 512) :
    k1_pay54 (F := Ideal) (k1_pay53 (F := Ideal) kc qf vm vl) (ix3 r 0 0)
      = lAfter qf kc (4 : Fin 16) (fun r => vm (ix3 r 0 0)) (fun r => vl (ix3 r 0 0)) r :=
  HeadA.lStoreT_apply 4 qf kc vm vl r

theorem m_store_4 (qf : S512x1024.Idx → EReal) (kc : S256x1024.Idx → EReal) (vm : S512x1x1.Idx → EReal) (r : Fin 512) :
    k1_pay56 (F := Ideal) (k1_pay50 (F := Ideal) kc qf vm) (ix3 r 0 0)
      = mAfter qf kc (4 : Fin 16) (fun r => vm (ix3 r 0 0)) r :=
  HeadA.mStoreT_apply 4 qf kc vm r

theorem a_store_4 (qf : S512x1024.Idx → EReal) (kc vc : S256x1024.Idx → EReal) (vm : S512x1x1.Idx → EReal)
    (va : S512x1x64.Idx → EReal) (r : Fin 512) (d : Fin 64) :
    k1_pay55 (F := Ideal) (k1_pay47 (F := Ideal) vc) (k1_pay51 (F := Ideal) kc qf vm) (k1_pay52 (F := Ideal) kc qf vm) va (ix3 r 0 d)
      = aAfter qf kc vc (4 : Fin 16) (fun r => vm (ix3 r 0 0)) (fun r d => va (ix3 r 0 d)) r d :=
  HeadA.accT_apply 4 qf kc vc vm va r d

theorem l_store_5 (qf : S512x1024.Idx → EReal) (kc : S256x1024.Idx → EReal) (vm vl : S512x1x1.Idx → EReal) (r : Fin 512) :
    k1_pay64 (F := Ideal) (k1_pay63 (F := Ideal) kc qf vm vl) (ix3 r 0 0)
      = lAfter qf kc (5 : Fin 16) (fun r => vm (ix3 r 0 0)) (fun r => vl (ix3 r 0 0)) r :=
  HeadA.lStoreT_apply 5 qf kc vm vl r

theorem m_store_5 (qf : S512x1024.Idx → EReal) (kc : S256x1024.Idx → EReal) (vm : S512x1x1.Idx → EReal) (r : Fin 512) :
    k1_pay66 (F := Ideal) (k1_pay60 (F := Ideal) kc qf vm) (ix3 r 0 0)
      = mAfter qf kc (5 : Fin 16) (fun r => vm (ix3 r 0 0)) r :=
  HeadA.mStoreT_apply 5 qf kc vm r

theorem a_store_5 (qf : S512x1024.Idx → EReal) (kc vc : S256x1024.Idx → EReal) (vm : S512x1x1.Idx → EReal)
    (va : S512x1x64.Idx → EReal) (r : Fin 512) (d : Fin 64) :
    k1_pay65 (F := Ideal) (k1_pay57 (F := Ideal) vc) (k1_pay61 (F := Ideal) kc qf vm) (k1_pay62 (F := Ideal) kc qf vm) va (ix3 r 0 d)
      = aAfter qf kc vc (5 : Fin 16) (fun r => vm (ix3 r 0 0)) (fun r d => va (ix3 r 0 d)) r d :=
  HeadA.accT_apply 5 qf kc vc vm va r d

end Cert.KernelIdeal.PayVal

end
-- ==== Proof.PayValB.lean ====
import proofs.«411452_j50508815401447_3_alg».proof.Proof.PayValA

noncomputable section

namespace Cert.KernelIdeal.PayVal

open Idealize.ShloMosaic Idealize.ShloMosaic.ValueIdx Cert.KernelIdeal Cert.KernelIdeal.Gen Cert.KernelIdeal.HeadSem

theorem l_store_6 (kc : S256x1024.Idx → EReal) (qf : S512x1024.Idx → EReal) (vm vl : S512x1x1.Idx → EReal) (r : Fin 512) :
    k1_pay74 (F := Ideal) (k1_pay73 (F := Ideal) kc qf vm vl) (ix3 r 0 0)
      = lAfter qf kc (6 : Fin 16) (fun r => vm (ix3 r 0 0)) (fun r => vl (ix3 r 0 0)) r :=
  HeadA.lStoreT_apply 6 qf kc vm vl r

theorem m_store_6 (kc : S256x1024.Idx → EReal) (qf : S512x1024.Idx → EReal) (vm : S512x1x1.Idx → EReal) (r : Fin 512) :
    k1_pay76 (F := Ideal) (k1_pay70 (F := Ideal) kc qf vm) (ix3 r 0 0)
      = mAfter qf kc (6 : Fin 16) (fun r => vm (ix3 r 0 0)) r :=
  HeadA.mStoreT_apply 6 qf kc vm r

theorem a_store_6 (kc vc : S256x1024.Idx → EReal) (qf : S512x1024.Idx → EReal) (vm : S512x1x1.Idx → EReal)
    (va : S512x1x64.Idx → EReal) (r : Fin 512) (d : Fin 64) :
    k1_pay75 (F := Ideal) (k1_pay67 (F := Ideal) vc) (k1_pay71 (F := Ideal) kc qf vm) (k1_pay72 (F := Ideal) kc qf vm) va (ix3 r 0 d)
      = aAfter qf kc vc (6 : Fin 16) (fun r => vm (ix3 r 0 0)) (fun r d => va (ix3 r 0 d)) r d :=
  HeadA.accT_apply 6 qf kc vc vm va r d

theorem l_store_7 (kc : S256x1024.Idx → EReal) (qf : S512x1024.Idx → EReal) (vm vl : S512x1x1.Idx → EReal) (r : Fin 512) :
    k1_pay85 (F := Ideal) (k1_pay83 (F := Ideal) kc qf vm vl) (k1_pay84 (F := Ideal) kc qf vm) (ix3 r 0 0)
      = lAfter qf kc (7 : Fin 16) (fun r => vm (ix3 r 0 0)) (fun r => vl (ix3 r 0 0)) r :=
  HeadA.lStoreT_apply 7 qf kc vm vl r

theorem m_store_7 (kc : S256x1024.Idx → EReal) (qf : S512x1024.Idx → EReal) (vm : S512x1x1.Idx → EReal) (r : Fin 512) :
    k1_pay87 (F := Ideal) (k1_pay80 (F := Ideal) kc qf vm) (ix3 r 0 0)
      = mAfter qf kc (7 : Fin 16) (fun r => vm (ix3 r 0 0)) r :=
  HeadA.mStoreT_apply 7 qf kc vm r

theorem a_store_7 (kc vc : S256x1024.Idx → EReal) (qf : S512x1024.Idx → EReal) (vm : S512x1x1.Idx → EReal)
    (va : S512x1x64.Idx → EReal) (r : Fin 512) (d : Fin 64) :
    k1_pay86 (F := Ideal) (k1_pay77 (F := Ideal) vc) (k1_pay81 (F := Ideal) kc qf vm) (k1_pay82 (F := Ideal) kc qf vm) va (ix3 r 0 d)
      = aAfter qf kc vc (7 : Fin 16) (fun r => vm (ix3 r 0 0)) (fun r d => va (ix3 r 0 d)) r d :=
  HeadA.accT_apply 7 qf kc vc vm va r d

theorem l_store_8 (kc : S256x1024.Idx → EReal) (qf : S512x1024.Idx → EReal) (vm vl : S512x1x1.Idx → EReal) (r : Fin 512) :
    k1_pay96 (F := Ideal) (k1_pay94 (F := Ideal) kc qf vm vl) (k1_pay95 (F := Ideal) kc qf vm) (ix3 r 0 0)
      = lAfter qf kc (8 : Fin 16) (fun r => vm (ix3 r 0 0)) (fun r => vl (ix3 r 0 0)) r :=
  HeadA.lStoreT_apply 8 qf kc vm vl r

theorem m_store_8 (kc : S256x1024.Idx → EReal) (qf : S512x1024.Idx → EReal) (vm : S512x1x1.Idx → EReal) (r : Fin 512) :
    k1_pay98 (F := Ideal) (k1_pay91 (F := Ideal) kc qf vm) (ix3 r 0 0)
      = mAfter qf kc (8 : Fin 16) (fun r => vm (ix3 r 0 0)) r :=
  HeadA.mStoreT_apply 8 qf kc vm r

theorem a_store_8 (kc vc : S256x1024.Idx → EReal) (qf : S512x1024.Idx → EReal) (vm : S512x1x1.Idx → EReal)
    (va : S512x1x64.Idx → EReal) (r : Fin 512) (d : Fin 64) :
    k1_pay97 (F := Ideal) (k1_pay88 (F := Ideal) vc) (k1_pay92 (F := Ideal) kc qf vm) (k1_pay93 (F := Ideal) kc qf vm) va (ix3 r 0 d)
      = aAfter qf kc vc (8 : Fin 16) (fun r => vm (ix3 r 0 0)) (fun r d => va (ix3 r 0 d)) r d :=
  HeadA.accT_apply 8 qf kc vc vm va r d

theorem l_store_9 (kc : S256x1024.Idx → EReal) (qf : S512x1024.Idx → EReal) (vm vl : S512x1x1.Idx → EReal) (r : Fin 512) :
    k1_pay106 (F := Ideal) (k1_pay104 (F := Ideal) kc qf vm) (k1_pay105 (F := Ideal) kc qf vm vl) (ix3 r 0 0)
      = lAfter qf kc (9 : Fin 16) (fun r => vm (ix3 r 0 0)) (fun r => vl (ix3 r 0 0)) r :=
  HeadA.lStoreT_apply 9 qf kc vm vl r

theorem m_store_9 (kc : S256x1024.Idx → EReal) (qf : S512x1024.Idx → EReal) (vm : S512x1x1.Idx → EReal) (r : Fin 512) :
    k1_pay108 (F := Ideal) (k1_pay102 (F := Ideal) kc qf vm) (ix3 r 0 0)
      = mAfter qf kc (9 : Fin 16) (fun r => vm (ix3 r 0 0)) r :=
  HeadA.mStoreT_apply 9 qf kc vm r

theorem a_store_9 (kc vc : S256x1024.Idx → EReal) (qf : S512x1024.Idx → EReal) (vm : S512x1x1.Idx → EReal)
    (va : S512x1x64.Idx → EReal) (r : Fin 512) (d : Fin 64) :
    k1_pay107 (F := Ideal) (k1_pay99 (F := Ideal) vc) (k1_pay103 (F := Ideal) kc qf vm) (k1_pay104 (F := Ideal) kc qf vm) va (ix3 r 0 d)
      = aAfter qf kc vc (9 : Fin 16) (fun r => vm (ix3 r 0 0)) (fun r d => va (ix3 r 0 d)) r d :=
  HeadA.accT_apply 9 qf kc vc vm va r d

theorem l_store_10 (kc : S256x1024.Idx → EReal) (qf : S512x1024.Idx → EReal) (vm vl : S512x1x1.Idx → EReal) (r : Fin 512) :
    k1_pay116 (F := Ideal) (k1_pay114 (F := Ideal) kc qf vm) (k1_pay115 (F := Ideal) kc qf vm vl) (ix3 r 0 0)
      = lAfter qf kc (10 : Fin 16) (fun r => vm (ix3 r 0 0)) (fun r => vl (ix3 r 0 0)) r :=
  HeadA.lStoreT_apply 10 qf kc vm vl r

theorem m_store_10 (kc : S256x1024.Idx → EReal) (qf : S512x1024.Idx → EReal) (vm : S512x1x1.Idx → EReal) (r : Fin 512) :
    k1_pay118 (F := Ideal) (k1_pay112 (F := Ideal) kc qf vm) (ix3 r 0 0)
      = mAfter qf kc (10 : Fin 16) (fun r => vm (ix3 r 0 0)) r :=
  HeadA.mStoreT_apply 10 qf kc vm r

theorem a_store_10 (kc vc : S256x1024.Idx → EReal) (qf : S512x1024.Idx → EReal) (vm : S512x1x1.Idx → EReal)
    (va : S512x1x64.Idx → EReal) (r : Fin 512) (d : Fin 64) :
    k1_pay117 (F := Ideal) (k1_pay109 (F := Ideal) vc) (k1_pay113 (F := Ideal) kc qf vm) (k1_pay114 (F := Ideal) kc qf vm) va (ix3 r 0 d)
      = aAfter qf kc vc (10 : Fin 16) (fun r => vm (ix3 r 0 0)) (fun r d => va (ix3 r 0 d)) r d :=
  HeadA.accT_apply 10 qf kc vc vm va r d

end Cert.KernelIdeal.PayVal

end
-- ==== Proof.PayValC.lean ====
import proofs.«411452_j50508815401447_3_alg».proof.Proof.PayValA

noncomputable section

namespace Cert.KernelIdeal.PayVal

open Idealize.ShloMosaic Idealize.ShloMosaic.ValueIdx Cert.KernelIdeal Cert.KernelIdeal.Gen Cert.KernelIdeal.HeadSem

theorem l_store_11 (kc : S256x1024.Idx → EReal) (qf : S512x1024.Idx → EReal) (vm vl : S512x1x1.Idx → EReal) (r : Fin 512) :
    k1_pay126 (F := Ideal) (k1_pay123 (F := Ideal) kc qf vm) (k1_pay124 (F := Ideal) kc qf vm) (k1_pay125 (F := Ideal) vl) (ix3 r 0 0)
      = lAfter qf kc (11 : Fin 16) (fun r => vm (ix3 r 0 0)) (fun r => vl (ix3 r 0 0)) r :=
  HeadA.lStoreT_apply 11 qf kc vm vl r

theorem m_store_11 (kc : S256x1024.Idx → EReal) (qf : S512x1024.Idx → EReal) (vm : S512x1x1.Idx → EReal) (r : Fin 512) :
    k1_pay128 (F := Ideal) (k1_pay122 (F := Ideal) kc qf vm) (ix3 r 0 0)
      = mAfter qf kc (11 : Fin 16) (fun r => vm (ix3 r 0 0)) r :=
  HeadA.mStoreT_apply 11 qf kc vm r

theorem a_store_11 (kc vc : S256x1024.Idx → EReal) (qf : S512x1024.Idx → EReal) (vm : S512x1x1.Idx → EReal)
    (va : S512x1x64.Idx → EReal) (r : Fin 512) (d : Fin 64) :
    k1_pay127 (F := Ideal) (k1_pay119 (F := Ideal) vc) (k1_pay123 (F := Ideal) kc qf vm) (k1_pay124 (F := Ideal) kc qf vm) va (ix3 r 0 d)
      = aAfter qf kc vc (11 : Fin 16) (fun r => vm (ix3 r 0 0)) (fun r d => va (ix3 r 0 d)) r d :=
  HeadA.accT_apply 11 qf kc vc vm va r d

theorem l_store_12 (kc : S256x1024.Idx → EReal) (qf : S512x1024.Idx → EReal) (vm vl : S512x1x1.Idx → EReal) (r : Fin 512) :
    k1_pay135 (F := Ideal) (k1_pay133 (F := Ideal) kc qf vm) (k1_pay134 (F := Ideal) kc qf vm) vl (ix3 r 0 0)
      = lAfter qf kc (12 : Fin 16) (fun r => vm (ix3 r 0 0)) (fun r => vl (ix3 r 0 0)) r :=
  HeadA.lStoreT_apply 12 qf kc vm vl r

theorem m_store_12 (kc : S256x1024.Idx → EReal) (qf : S512x1024.Idx → EReal) (vm : S512x1x1.Idx → EReal) (r : Fin 512) :
    k1_pay137 (F := Ideal) (k1_pay132 (F := Ideal) kc qf vm) (ix3 r 0 0)
      = mAfter qf kc (12 : Fin 16) (fun r => vm (ix3 r 0 0)) r :=
  HeadA.mStoreT_apply 12 qf kc vm r

theorem a_store_12 (kc vc : S256x1024.Idx → EReal) (qf : S512x1024.Idx → EReal) (vm : S512x1x1.Idx → EReal)
    (va : S512x1x64.Idx → EReal) (r : Fin 512) (d : Fin 64) :
    k1_pay136 (F := Ideal) (k1_pay129 (F := Ideal) vc) (k1_pay133 (F := Ideal) kc qf vm) (k1_pay134 (F := Ideal) kc qf vm) va (ix3 r 0 d)
      = aAfter qf kc vc (12 : Fin 16) (fun r => vm (ix3 r 0 0)) (fun r d => va (ix3 r 0 d)) r d :=
  HeadA.accT_apply 12 qf kc vc vm va r d

theorem l_store_13 (kc : S256x1024.Idx → EReal) (qf : S512x1024.Idx → EReal) (vm vl : S512x1x1.Idx → EReal) (r : Fin 512) :
    k1_pay144 (F := Ideal) (k1_pay142 (F := Ideal) kc qf vm) (k1_pay143 (F := Ideal) kc qf vm) vl (ix3 r 0 0)
      = lAfter qf kc (13 : Fin 16) (fun r => vm (ix3 r 0 0)) (fun r => vl (ix3 r 0 0)) r :=
  HeadA.lStoreT_apply 13 qf kc vm vl r

theorem m_store_13 (kc : S256x1024.Idx → EReal) (qf : S512x1024.Idx → EReal) (vm : S512x1x1.Idx → EReal) (r : Fin 512) :
    k1_pay146 (F := Ideal) (k1_pay141 (F := Ideal) kc qf vm) (ix3 r 0 0)
      = mAfter qf kc (13 : Fin 16) (fun r => vm (ix3 r 0 0)) r :=
  HeadA.mStoreT_apply 13 qf kc vm r

theorem a_store_13 (kc vc : S256x1024.Idx → EReal) (qf : S512x1024.Idx → EReal) (vm : S512x1x1.Idx → EReal)
    (va : S512x1x64.Idx → EReal) (r : Fin 512) (d : Fin 64) :
    k1_pay145 (F := Ideal) (k1_pay138 (F := Ideal) vc) (k1_pay142 (F := Ideal) kc qf vm) (k1_pay143 (F := Ideal) kc qf vm) va (ix3 r 0 d)
      = aAfter qf kc vc (13 : Fin 16) (fun r => vm (ix3 r 0 0)) (fun r d => va (ix3 r 0 d)) r d :=
  HeadA.accT_apply 13 qf kc vc vm va r d

theorem l_store_14 (kc : S256x1024.Idx → EReal) (qf : S512x1024.Idx → EReal) (vm vl : S512x1x1.Idx → EReal) (r : Fin 512) :
    k1_pay153 (F := Ideal) (k1_pay151 (F := Ideal) kc qf vm) (k1_pay152 (F := Ideal) kc qf vm) vl (ix3 r 0 0)
      = lAfter qf kc (14 : Fin 16) (fun r => vm (ix3 r 0 0)) (fun r => vl (ix3 r 0 0)) r :=
  HeadA.lStoreT_apply 14 qf kc vm vl r

theorem m_store_14 (kc : S256x1024.Idx → EReal) (qf : S512x1024.Idx → EReal) (vm : S512x1x1.Idx → EReal) (r : Fin 512) :
    k1_pay155 (F := Ideal) (k1_pay150 (F := Ideal) kc qf vm) (ix3 r 0 0)
      = mAfter qf kc (14 : Fin 16) (fun r => vm (ix3 r 0 0)) r :=
  HeadA.mStoreT_apply 14 qf kc vm r

theorem a_store_14 (kc vc : S256x1024.Idx → EReal) (qf : S512x1024.Idx → EReal) (vm : S512x1x1.Idx → EReal)
    (va : S512x1x64.Idx → EReal) (r : Fin 512) (d : Fin 64) :
    k1_pay154 (F := Ideal) (k1_pay147 (F := Ideal) vc) (k1_pay151 (F := Ideal) kc qf vm) (k1_pay152 (F := Ideal) kc qf vm) va (ix3 r 0 d)
      = aAfter qf kc vc (14 : Fin 16) (fun r => vm (ix3 r 0 0)) (fun r d => va (ix3 r 0 d)) r d :=
  HeadA.accT_apply 14 qf kc vc vm va r d

theorem l_store_15 (kc : S256x1024.Idx → EReal) (qf : S512x1024.Idx → EReal) (vm vl : S512x1x1.Idx → EReal) (r : Fin 512) :
    k1_pay162 (F := Ideal) (k1_pay160 (F := Ideal) kc qf vm) (k1_pay161 (F := Ideal) kc qf vm) vl (ix3 r 0 0)
      = lAfter qf kc (15 : Fin 16) (fun r => vm (ix3 r 0 0)) (fun r => vl (ix3 r 0 0)) r :=
  HeadA.lStoreT_apply 15 qf kc vm vl r

theorem m_store_15 (kc : S256x1024.Idx → EReal) (qf : S512x1024.Idx → EReal) (vm : S512x1x1.Idx → EReal) (r : Fin 512) :
    k1_pay164 (F := Ideal) (k1_pay159 (F := Ideal) kc qf vm) (ix3 r 0 0)
      = mAfter qf kc (15 : Fin 16) (fun r => vm (ix3 r 0 0)) r :=
  HeadA.mStoreT_apply 15 qf kc vm r

theorem a_store_15 (kc vc : S256x1024.Idx → EReal) (qf : S512x1024.Idx → EReal) (vm : S512x1x1.Idx → EReal)
    (va : S512x1x64.Idx → EReal) (r : Fin 512) (d : Fin 64) :
    k1_pay163 (F := Ideal) (k1_pay156 (F := Ideal) vc) (k1_pay160 (F := Ideal) kc qf vm) (k1_pay161 (F := Ideal) kc qf vm) va (ix3 r 0 d)
      = aAfter qf kc vc (15 : Fin 16) (fun r => vm (ix3 r 0 0)) (fun r d => va (ix3 r 0 d)) r d :=
  HeadA.accT_apply 15 qf kc vc vm va r d

end Cert.KernelIdeal.PayVal

end
-- ==== Proof.ScratchB.lean ====
import proofs.«411452_j50508815401447_3_alg».proof.Proof.KI.R1RunB
import proofs.«411452_j50508815401447_3_alg».proof.Proof.HeadSem
import proofs.«411452_j50508815401447_3_alg».proof.Proof.PayValA
import proofs.«411452_j50508815401447_3_alg».proof.Proof.PayValB
import proofs.«411452_j50508815401447_3_alg».proof.Proof.PayValC
import Idealize.ShloMosaic.Lib.Pipeline.Value
import Idealize.ShloMosaic.Lib.Ring
import Idealize.ShloMosaic.Lib.QrPanel.Panel

noncomputable section

namespace Cert.KernelIdeal.ScratchVal

open Cert.KernelIdeal Cert.KernelIdeal.Gen Cert.KernelIdeal.Hand Cert.KernelIdeal.HeadSem Cert.KernelIdeal.PayVal
open Idealize.ShloMosaic Idealize.ShloMosaic.ValueIdx Idealize.ShloMosaic.TcCoe Idealize.ShloMosaic.Tactic
open Idealize.SL.Sem

abbrev HeadInb (n o : ℕ) : Prop :=
  ∀ a, (![0, o, 0] : Fin 3 → ℕ) a + (![512, 1, n] : Fin 3 → ℕ) a ≤ (⟨3, ![512, 16, n]⟩ : Shape).size a

abbrev headRect (n : ℕ) (h : Fin 16) (inb : HeadInb n h.val) : Rect ⟨3, ![512, 16, n]⟩ :=
  Rect.unit ![0, h.val, 0] ![512, 1, n] inb

-- The head-`h` slab of a `[512, 16, n]` buffer is its rows at head `h`.
theorem idx_head {n : ℕ} (h : Fin 16) (inb : HeadInb n h.val) (r : Fin 512) (u : Fin 1) (d : Fin n) :
    (headRect n h inb).idx (ix3 r u d) = ix3 r h d := by
  funext a
  apply Fin.ext
  have hu : u.val = 0 := by omega
  match a with
  | ⟨0, _⟩ => show 0 + 1 * r.val = r.val; omega
  | ⟨1, _⟩ => show h.val + 1 * u.val = h.val; omega
  | ⟨2, _⟩ => show 0 + 1 * d.val = d.val; omega

-- A slab payload that agrees with `G` at head `h` is the head-`h` block of `G`.
theorem slab_piece {n : ℕ} (G : (⟨3, ![512, 16, n]⟩ : Shape).Idx → EReal) (h : Fin 16) {inb : HeadInb n h.val}
    {w : (⟨3, ![512, 1, n]⟩ : Shape).Idx → EReal} (hw : ∀ r d, w (ix3 r 0 d) = G (ix3 r h d))
    (x : (⟨3, ![512, 1, n]⟩ : Shape).Idx) :
    w x = G ((headRect n h inb).emb x) := by
  obtain ⟨r, u, d, rfl⟩ : ∃ (r : Fin 512) (u : Fin 1) (d : Fin n), x = ix3 r u d := ⟨_, _, _, eq_ix3 x⟩
  rw [Fin.fin_one_eq_zero u]
  exact (hw r d).trans (congrArg G (idx_head h inb r 0 d)).symm

def lFun (qf : S512x1024.Idx → EReal) (kc : S256x1024.Idx → EReal) (xs0 xs1 : S512x16x1.Idx → EReal) :
    S512x16x1.Idx → EReal :=
  fun y => lAfter qf kc (y 1) (fun r => xs0 (ix3 r (y 1) 0)) (fun r => xs1 (ix3 r (y 1) 0)) (y 0)

def mFun (qf : S512x1024.Idx → EReal) (kc : S256x1024.Idx → EReal) (xs0 : S512x16x1.Idx → EReal) :
    S512x16x1.Idx → EReal :=
  fun y => mAfter qf kc (y 1) (fun r => xs0 (ix3 r (y 1) 0)) (y 0)

theorem l_piece {qf : S512x1024.Idx → EReal} {kc : S256x1024.Idx → EReal} {xs0 xs1 : Vec Ideal S512x16x1 .f32} (h : Fin 16)
    {inb : HeadInb 1 h.val} {w : S512x1x1.Idx → EReal}
    (hw : ∀ r : Fin 512, w (ix3 r 0 0)
      = lAfter qf kc h (fun r => xs0 ((headRect 1 h inb).idx (ix3 r 0 0)))
          (fun r => xs1 ((headRect 1 h inb).idx (ix3 r 0 0))) r) :
    ∀ x, w x = lFun qf kc xs0 xs1 ((headRect 1 h inb).emb x) :=
  slab_piece _ h fun r d => by
    rw [Fin.fin_one_eq_zero d, hw r]
    simp only [idx_head]
    rfl

theorem m_piece {qf : S512x1024.Idx → EReal} {kc : S256x1024.Idx → EReal} {xs0 : Vec Ideal S512x16x1 .f32} (h : Fin 16)
    {inb : HeadInb 1 h.val} {w : S512x1x1.Idx → EReal}
    (hw : ∀ r : Fin 512, w (ix3 r 0 0)
      = mAfter qf kc h (fun r => xs0 ((headRect 1 h inb).idx (ix3 r 0 0))) r) :
    ∀ x, w x = mFun qf kc xs0 ((headRect 1 h inb).emb x) :=
  slab_piece _ h fun r d => by
    rw [Fin.fin_one_eq_zero d, hw r]
    simp only [idx_head]
    rfl

section B

variable (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole) (hc0 : ¬cond1_0 i) (hc1 : ¬cond1_1 i)
    (x0 : Vec Ideal S1x512x1024 .bf16) (x1 x2 : Vec Ideal S1x2048x1024 .bf16) (x3 : Vec Ideal S1024x1024 .bf16) (x4 : Vec Ideal S1024 .f32)
    (xs0 xs1 : Vec Ideal S512x16x1 .f32) (xs2 : Vec Ideal S512x16x64 .f32) (xs3 : Vec Ideal S512x1024 .bf16)

abbrev kcOf (i : grid1.Coords) (x1 : Vec Ideal S1x2048x1024 .bf16) : S256x1024.Idx → EReal :=
  k1_pay6 (F := Ideal) (View.ld x1 (Rect.unit (s := S1x2048x1024) (k1_off1 i) S1x256x1024.size (k1_off1_inb i)))

local notation "RUNB" => kernelRun1_B (F := Ideal) c i arg3 harg3 arg4 harg4 arg5 harg5 arg6 harg6 arg7 harg7 arg8 harg8 arg9 harg9 arg10 harg10 arg11 harg11 arg12 harg12 hc0 hc1 x0 x1 x2 x3 x4 xs0 xs1 xs2 xs3

theorem l_after_B (r : Fin 512) (h : Fin 16) :
    View.canon (RUNB).2.2.1 (ix3 r h 0)
      = lAfter xs3 (kcOf i x1) h (fun r => xs0 (ix3 r h 0)) (fun r => xs1 (ix3 r h 0)) r := by
  unfold kernelRun1_B
  dsimp only
  refine View.canon_apply_of_pieces (Val := Elt Ideal) (e := .f32) (lFun xs3 (kcOf i x1) xs0 xs1) _ ?_ _ (View.cover_of_tiledL (s := S512x16x1) _ ![512, 1, 1] (by sl_kernel_rfl) _)
  sl_unfold_run_names
  simp only [View.readAt_eq_ld, harg4.read_unread, harg9.read_unread, harg10.read_unread, harg12.read_unread,
    View.ld_unit_zero (S := S512x1024) QrPanel.Panel.zeros2, List.forall_mem_cons]
  exact ⟨
    l_piece 15 (l_store_15 _ _ _ _), l_piece 14 (l_store_14 _ _ _ _),
    l_piece 13 (l_store_13 _ _ _ _), l_piece 12 (l_store_12 _ _ _ _),
    l_piece 11 (l_store_11 _ _ _ _), l_piece 10 (l_store_10 _ _ _ _),
    l_piece 9 (l_store_9 _ _ _ _), l_piece 8 (l_store_8 _ _ _ _),
    l_piece 7 (l_store_7 _ _ _ _), l_piece 6 (l_store_6 _ _ _ _),
    l_piece 5 (l_store_5 _ _ _ _), l_piece 4 (l_store_4 _ _ _ _),
    l_piece 3 (l_store_3 _ _ _ _), l_piece 2 (l_store_2 _ _ _ _),
    l_piece 1 (l_store_1 _ _ _ _), l_piece 0 (l_store_0 _ _ _ _),
    List.forall_mem_nil _⟩

theorem m_after_B (r : Fin 512) (h : Fin 16) :
    View.canon (RUNB).2.1 (ix3 r h 0) = mAfter xs3 (kcOf i x1) h (fun r => xs0 (ix3 r h 0)) r := by
  unfold kernelRun1_B
  dsimp only
  refine View.canon_apply_of_pieces (Val := Elt Ideal) (e := .f32) (mFun xs3 (kcOf i x1) xs0) _ ?_ _ (View.cover_of_tiledL (s := S512x16x1) _ ![512, 1, 1] (by sl_kernel_rfl) _)
  sl_unfold_run_names
  simp only [View.readAt_eq_ld, harg4.read_unread, harg9.read_unread, harg10.read_unread, harg12.read_unread,
    View.ld_unit_zero (S := S512x1024) QrPanel.Panel.zeros2, List.forall_mem_cons]
  exact ⟨
    m_piece 15 (m_store_15 _ _ _), m_piece 14 (m_store_14 _ _ _),
    m_piece 13 (m_store_13 _ _ _), m_piece 12 (m_store_12 _ _ _),
    m_piece 11 (m_store_11 _ _ _), m_piece 10 (m_store_10 _ _ _),
    m_piece 9 (m_store_9 _ _ _), m_piece 8 (m_store_8 _ _ _),
    m_piece 7 (m_store_7 _ _ _), m_piece 6 (m_store_6 _ _ _),
    m_piece 5 (m_store_5 _ _ _), m_piece 4 (m_store_4 _ _ _),
    m_piece 3 (m_store_3 _ _ _), m_piece 2 (m_store_2 _ _ _),
    m_piece 1 (m_store_1 _ _ _), m_piece 0 (m_store_0 _ _ _),
    List.forall_mem_nil _⟩

end B

end Cert.KernelIdeal.ScratchVal

end
-- ==== Proof.ScratchBAcc.lean ====
import proofs.«411452_j50508815401447_3_alg».proof.Proof.ScratchB

noncomputable section

namespace Cert.KernelIdeal.ScratchVal

open Cert.KernelIdeal Cert.KernelIdeal.Gen Cert.KernelIdeal.Hand Cert.KernelIdeal.HeadSem Cert.KernelIdeal.PayVal
open Idealize.ShloMosaic Idealize.ShloMosaic.ValueIdx Idealize.ShloMosaic.TcCoe Idealize.ShloMosaic.Tactic
open Idealize.SL.Sem

def aFun (qf : S512x1024.Idx → EReal) (kc vc : S256x1024.Idx → EReal) (xs0 : S512x16x1.Idx → EReal) (xs2 : S512x16x64.Idx → EReal) :
    S512x16x64.Idx → EReal :=
  fun y => aAfter qf kc vc (y 1) (fun r => xs0 (ix3 r (y 1) 0)) (fun r d => xs2 (ix3 r (y 1) d)) (y 0) (y 2)

theorem a_piece {qf : S512x1024.Idx → EReal} {kc vc : S256x1024.Idx → EReal} {xs0 : Vec Ideal S512x16x1 .f32}
    {xs2 : Vec Ideal S512x16x64 .f32} (h : Fin 16) {inb64 : HeadInb 64 h.val} {inb1 : HeadInb 1 h.val} {w : S512x1x64.Idx → EReal}
    (hw : ∀ (r : Fin 512) (d : Fin 64), w (ix3 r 0 d)
      = aAfter qf kc vc h (fun r => xs0 ((headRect 1 h inb1).idx (ix3 r 0 0)))
          (fun r d => xs2 ((headRect 64 h inb64).idx (ix3 r 0 d))) r d) :
    ∀ x, w x = aFun qf kc vc xs0 xs2 ((headRect 64 h inb64).emb x) :=
  slab_piece _ h fun r d => by
    rw [hw r d]
    simp only [idx_head]
    rfl

section B

variable (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole) (hc0 : ¬cond1_0 i) (hc1 : ¬cond1_1 i)
    (x0 : Vec Ideal S1x512x1024 .bf16) (x1 x2 : Vec Ideal S1x2048x1024 .bf16) (x3 : Vec Ideal S1024x1024 .bf16) (x4 : Vec Ideal S1024 .f32)
    (xs0 xs1 : Vec Ideal S512x16x1 .f32) (xs2 : Vec Ideal S512x16x64 .f32) (xs3 : Vec Ideal S512x1024 .bf16)

local notation "KC" => (k1_pay6 (F := Ideal) (View.ld x1 (Rect.unit (s := S1x2048x1024) (k1_off1 i) S1x256x1024.size (k1_off1_inb i))) : S256x1024.Idx → EReal)

abbrev vcOf (i : grid1.Coords) (x2 : Vec Ideal S1x2048x1024 .bf16) : S256x1024.Idx → EReal :=
  k1_pay7 (F := Ideal) (View.ld x2 (Rect.unit (s := S1x2048x1024) (k1_off1 i) S1x256x1024.size (k1_off1_inb i)))

local notation "RUNB" => kernelRun1_B (F := Ideal) c i arg3 harg3 arg4 harg4 arg5 harg5 arg6 harg6 arg7 harg7 arg8 harg8 arg9 harg9 arg10 harg10 arg11 harg11 arg12 harg12 hc0 hc1 x0 x1 x2 x3 x4 xs0 xs1 xs2 xs3

theorem a_after_B (r : Fin 512) (h : Fin 16) (d : Fin 64) :
    View.canon (RUNB).2.2.2.1 (ix3 r h d)
      = aAfter xs3 KC (vcOf i x2) h (fun r => xs0 (ix3 r h 0)) (fun r d => xs2 (ix3 r h d)) r d := by
  unfold kernelRun1_B
  dsimp only
  refine View.canon_apply_of_pieces (Val := Elt Ideal) (e := .f32) (aFun xs3 KC (vcOf i x2) xs0 xs2) _ ?_ _ (View.cover_of_tiledL (s := S512x16x64) _ ![512, 1, 64] (by sl_kernel_rfl) _)
  sl_unfold_run_names
  simp only [View.readAt_eq_ld, harg4.read_unread, harg5.read_unread, harg9.read_unread, harg11.read_unread, harg12.read_unread,
    View.ld_unit_zero (S := S512x1024) QrPanel.Panel.zeros2, List.forall_mem_cons]
  exact ⟨
    a_piece 15 (a_store_15 _ _ _ _ _), a_piece 14 (a_store_14 _ _ _ _ _),
    a_piece 13 (a_store_13 _ _ _ _ _), a_piece 12 (a_store_12 _ _ _ _ _),
    a_piece 11 (a_store_11 _ _ _ _ _), a_piece 10 (a_store_10 _ _ _ _ _),
    a_piece 9 (a_store_9 _ _ _ _ _), a_piece 8 (a_store_8 _ _ _ _ _),
    a_piece 7 (a_store_7 _ _ _ _ _), a_piece 6 (a_store_6 _ _ _ _ _),
    a_piece 5 (a_store_5 _ _ _ _ _), a_piece 4 (a_store_4 _ _ _ _ _),
    a_piece 3 (a_store_3 _ _ _ _ _), a_piece 2 (a_store_2 _ _ _ _ _),
    a_piece 1 (a_store_1 _ _ _ _ _), a_piece 0 (a_store_0 _ _ _ _ _),
    List.forall_mem_nil _⟩

end B

end Cert.KernelIdeal.ScratchVal

end
-- ==== Proof.ScratchAtDefs.lean ====
import proofs.«411452_j50508815401447_3_alg».proof.Proof.KI.R1
import proofs.«411452_j50508815401447_3_alg».proof.Proof.ScratchB
import proofs.«411452_j50508815401447_3_alg».proof.Proof.ScratchBAcc

noncomputable section

namespace Cert.KernelIdeal.ScratchVal

open Idealize.ShloMosaic Idealize.ShloMosaic.ValueIdx Idealize.ShloMosaic.TcCoe
open Cert.KernelIdeal Cert.KernelIdeal.Gen Cert.KernelIdeal.Hand
open Idealize.SL.Sem

variable (V : (c : Dev nD) → (b : Ref sig .tc) → Buf (Elt Ideal) ((c : Thread nD τ).loc b))

abbrev kcAt (c : Dev nD) (t : Fin cfg1.N) : S256x1024.Idx → EReal := kcOf (grid1.coords t) (iblk1 V c 1 t)

abbrev vcAt (c : Dev nD) (t : Fin cfg1.N) : S256x1024.Idx → EReal := vcOf (grid1.coords t) (iblk1 V c 2 t)

abbrev prevAt (c : Dev nD) (t : Fin cfg1.N) :=
  outsAt1 V c (t.val - 1) (Nat.lt_of_le_of_lt (Nat.sub_le _ _) t.isLt)

end Cert.KernelIdeal.ScratchVal

end
-- ==== Proof.ScratchCHeads.lean ====
import proofs.«411452_j50508815401447_3_alg».proof.Proof.KI.R1RunC
import proofs.«411452_j50508815401447_3_alg».proof.Proof.ScratchB

noncomputable section

namespace Cert.KernelIdeal.ScratchVal

open Cert.KernelIdeal Cert.KernelIdeal.Gen Cert.KernelIdeal.Hand Cert.KernelIdeal.HeadSem Cert.KernelIdeal.PayVal
open Idealize.ShloMosaic Idealize.ShloMosaic.ValueIdx Idealize.ShloMosaic.TcCoe Idealize.ShloMosaic.Tactic
open Idealize.SL.Sem

section C

variable (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole) (hc0 : ¬cond1_0 i) (hc1 : cond1_1 i)
    (x0 : Vec Ideal S1x512x1024 .bf16) (x1 x2 : Vec Ideal S1x2048x1024 .bf16) (x3 : Vec Ideal S1024x1024 .bf16) (x4 : Vec Ideal S1024 .f32)
    (xs0 xs1 : Vec Ideal S512x16x1 .f32) (xs2 : Vec Ideal S512x16x64 .f32) (xs3 : Vec Ideal S512x1024 .bf16)

local notation "RUNC" => kernelRun1_C (F := Ideal) c i arg3 harg3 arg4 harg4 arg5 harg5 arg6 harg6 arg7 harg7 arg8 harg8 arg9 harg9 arg10 harg10 arg11 harg11 arg12 harg12 hc0 hc1 x0 x1 x2 x3 x4 xs0 xs1 xs2 xs3

theorem l_after_C (r : Fin 512) (h : Fin 16) :
    View.canon (RUNC).2.2.1 (ix3 r h 0)
      = lAfter xs3 (kcOf i x1) h (fun r => xs0 (ix3 r h 0)) (fun r => xs1 (ix3 r h 0)) r := by
  unfold kernelRun1_C
  dsimp only
  refine View.canon_apply_of_pieces (Val := Elt Ideal) (e := .f32) (lFun xs3 (kcOf i x1) xs0 xs1) _ ?_ _ (View.cover_of_tiledL (s := S512x16x1) _ ![512, 1, 1] (by sl_kernel_rfl) _)
  sl_unfold_run_names
  simp only [View.readAt_eq_ld, harg4.read_unread, harg9.read_unread, harg10.read_unread, harg12.read_unread,
    View.ld_unit_zero (S := S512x1024) QrPanel.Panel.zeros2, List.forall_mem_cons]
  exact ⟨
    l_piece 15 (l_store_15 _ _ _ _), l_piece 14 (l_store_14 _ _ _ _),
    l_piece 13 (l_store_13 _ _ _ _), l_piece 12 (l_store_12 _ _ _ _),
    l_piece 11 (l_store_11 _ _ _ _), l_piece 10 (l_store_10 _ _ _ _),
    l_piece 9 (l_store_9 _ _ _ _), l_piece 8 (l_store_8 _ _ _ _),
    l_piece 7 (l_store_7 _ _ _ _), l_piece 6 (l_store_6 _ _ _ _),
    l_piece 5 (l_store_5 _ _ _ _), l_piece 4 (l_store_4 _ _ _ _),
    l_piece 3 (l_store_3 _ _ _ _), l_piece 2 (l_store_2 _ _ _ _),
    l_piece 1 (l_store_1 _ _ _ _), l_piece 0 (l_store_0 _ _ _ _),
    List.forall_mem_nil _⟩

theorem m_after_C (r : Fin 512) (h : Fin 16) :
    View.canon (RUNC).2.1 (ix3 r h 0) = mAfter xs3 (kcOf i x1) h (fun r => xs0 (ix3 r h 0)) r := by
  unfold kernelRun1_C
  dsimp only
  refine View.canon_apply_of_pieces (Val := Elt Ideal) (e := .f32) (mFun xs3 (kcOf i x1) xs0) _ ?_ _ (View.cover_of_tiledL (s := S512x16x1) _ ![512, 1, 1] (by sl_kernel_rfl) _)
  sl_unfold_run_names
  simp only [View.readAt_eq_ld, harg4.read_unread, harg9.read_unread, harg10.read_unread, harg12.read_unread,
    View.ld_unit_zero (S := S512x1024) QrPanel.Panel.zeros2, List.forall_mem_cons]
  exact ⟨
    m_piece 15 (m_store_15 _ _ _), m_piece 14 (m_store_14 _ _ _),
    m_piece 13 (m_store_13 _ _ _), m_piece 12 (m_store_12 _ _ _),
    m_piece 11 (m_store_11 _ _ _), m_piece 10 (m_store_10 _ _ _),
    m_piece 9 (m_store_9 _ _ _), m_piece 8 (m_store_8 _ _ _),
    m_piece 7 (m_store_7 _ _ _), m_piece 6 (m_store_6 _ _ _),
    m_piece 5 (m_store_5 _ _ _), m_piece 4 (m_store_4 _ _ _),
    m_piece 3 (m_store_3 _ _ _), m_piece 2 (m_store_2 _ _ _),
    m_piece 1 (m_store_1 _ _ _), m_piece 0 (m_store_0 _ _ _),
    List.forall_mem_nil _⟩

end C

end Cert.KernelIdeal.ScratchVal

end
-- ==== Proof.ScratchCAcc.lean ====
import proofs.«411452_j50508815401447_3_alg».proof.Proof.KI.R1RunC
import proofs.«411452_j50508815401447_3_alg».proof.Proof.ScratchBAcc

noncomputable section

namespace Cert.KernelIdeal.ScratchVal

open Cert.KernelIdeal Cert.KernelIdeal.Gen Cert.KernelIdeal.Hand Cert.KernelIdeal.HeadSem Cert.KernelIdeal.PayVal
open Idealize.ShloMosaic Idealize.ShloMosaic.ValueIdx Idealize.ShloMosaic.TcCoe Idealize.ShloMosaic.Tactic
open Idealize.SL.Sem

section C

variable (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole) (hc0 : ¬cond1_0 i) (hc1 : cond1_1 i)
    (x0 : Vec Ideal S1x512x1024 .bf16) (x1 x2 : Vec Ideal S1x2048x1024 .bf16) (x3 : Vec Ideal S1024x1024 .bf16) (x4 : Vec Ideal S1024 .f32)
    (xs0 xs1 : Vec Ideal S512x16x1 .f32) (xs2 : Vec Ideal S512x16x64 .f32) (xs3 : Vec Ideal S512x1024 .bf16)

local notation "KC" => (k1_pay6 (F := Ideal) (View.ld x1 (Rect.unit (s := S1x2048x1024) (k1_off1 i) S1x256x1024.size (k1_off1_inb i))) : S256x1024.Idx → EReal)

local notation "RUNC" => kernelRun1_C (F := Ideal) c i arg3 harg3 arg4 harg4 arg5 harg5 arg6 harg6 arg7 harg7 arg8 harg8 arg9 harg9 arg10 harg10 arg11 harg11 arg12 harg12 hc0 hc1 x0 x1 x2 x3 x4 xs0 xs1 xs2 xs3

theorem a_after_C (r : Fin 512) (h : Fin 16) (d : Fin 64) :
    View.canon (RUNC).2.2.2.1 (ix3 r h d)
      = aAfter xs3 KC (vcOf i x2) h (fun r => xs0 (ix3 r h 0)) (fun r d => xs2 (ix3 r h d)) r d := by
  unfold kernelRun1_C
  dsimp only
  refine View.canon_apply_of_pieces (Val := Elt Ideal) (e := .f32) (aFun xs3 KC (vcOf i x2) xs0 xs2) _ ?_ _ (View.cover_of_tiledL (s := S512x16x64) _ ![512, 1, 64] (by sl_kernel_rfl) _)
  sl_unfold_run_names
  simp only [View.readAt_eq_ld, harg4.read_unread, harg5.read_unread, harg9.read_unread, harg11.read_unread, harg12.read_unread,
    View.ld_unit_zero (S := S512x1024) QrPanel.Panel.zeros2, List.forall_mem_cons]
  exact ⟨
    a_piece 15 (a_store_15 _ _ _ _ _), a_piece 14 (a_store_14 _ _ _ _ _),
    a_piece 13 (a_store_13 _ _ _ _ _), a_piece 12 (a_store_12 _ _ _ _ _),
    a_piece 11 (a_store_11 _ _ _ _ _), a_piece 10 (a_store_10 _ _ _ _ _),
    a_piece 9 (a_store_9 _ _ _ _ _), a_piece 8 (a_store_8 _ _ _ _ _),
    a_piece 7 (a_store_7 _ _ _ _ _), a_piece 6 (a_store_6 _ _ _ _ _),
    a_piece 5 (a_store_5 _ _ _ _ _), a_piece 4 (a_store_4 _ _ _ _ _),
    a_piece 3 (a_store_3 _ _ _ _ _), a_piece 2 (a_store_2 _ _ _ _ _),
    a_piece 1 (a_store_1 _ _ _ _ _), a_piece 0 (a_store_0 _ _ _ _ _),
    List.forall_mem_nil _⟩

end C

end Cert.KernelIdeal.ScratchVal

end
-- ==== Proof.ScratchAt.lean ====
import proofs.«411452_j50508815401447_3_alg».proof.Proof.KI.R1
import proofs.«411452_j50508815401447_3_alg».proof.Proof.ScratchAtDefs
import proofs.«411452_j50508815401447_3_alg».proof.Proof.ScratchB
import proofs.«411452_j50508815401447_3_alg».proof.Proof.ScratchBAcc
import proofs.«411452_j50508815401447_3_alg».proof.Proof.ScratchCHeads
import proofs.«411452_j50508815401447_3_alg».proof.Proof.ScratchCAcc
import Idealize.ShloMosaic.Lib.Pipeline.Value
import Idealize.ShloMosaic.Lib.Pipeline.FrameBody

noncomputable section

namespace Cert.KernelIdeal.ScratchVal

open Idealize.ShloMosaic Idealize.ShloMosaic.ValueIdx Idealize.ShloMosaic.TcCoe
open Cert.KernelIdeal Cert.KernelIdeal.Gen Cert.KernelIdeal.Hand Cert.KernelIdeal.HeadSem
open Idealize.SL.Sem

variable (V : (c : Dev nD) → (b : Ref sig .tc) → Buf (Elt Ideal) ((c : Thread nD τ).loc b))

theorem m_at_next (c : Dev nD) (t : Fin cfg1.N) (h0 : ¬t.val % 8 = 0) (r : Fin 512) (h : Fin 16) :
    (outsAt1 V c t.val t.isLt).2.1 (ix3 r h 0)
      = mAfter (prevAt V c t).2.2.2.2 (kcAt V c t) h (fun r => (prevAt V c t).2.1 (ix3 r h 0)) r := by
  by_cases h1 : t.val % 8 = 7
  · rw [outsAt1_C V c t h0 h1]
    simp only [outs1_C, sout1_C_0, View.read_writes_junk_apply_eq_canon]
    exact m_after_C _ _ _ _ _ _ _ _ _ _ _ _ _ _ _ _ _ _ _ _ _ _ _ _ _ _ _ _ _ _ _ _ _ r h
  · rw [outsAt1_B V c t h0 h1]
    simp only [outs1_B, sout1_B_0, View.read_writes_junk_apply_eq_canon]
    exact m_after_B _ _ _ _ _ _ _ _ _ _ _ _ _ _ _ _ _ _ _ _ _ _ _ _ _ _ _ _ _ _ _ _ _ r h

theorem l_at_next (c : Dev nD) (t : Fin cfg1.N) (h0 : ¬t.val % 8 = 0) (r : Fin 512) (h : Fin 16) :
    (outsAt1 V c t.val t.isLt).2.2.1 (ix3 r h 0)
      = lAfter (prevAt V c t).2.2.2.2 (kcAt V c t) h (fun r => (prevAt V c t).2.1 (ix3 r h 0))
          (fun r => (prevAt V c t).2.2.1 (ix3 r h 0)) r := by
  by_cases h1 : t.val % 8 = 7
  · rw [outsAt1_C V c t h0 h1]
    simp only [outs1_C, sout1_C_1, View.read_writes_junk_apply_eq_canon]
    exact l_after_C _ _ _ _ _ _ _ _ _ _ _ _ _ _ _ _ _ _ _ _ _ _ _ _ _ _ _ _ _ _ _ _ _ r h
  · rw [outsAt1_B V c t h0 h1]
    simp only [outs1_B, sout1_B_1, View.read_writes_junk_apply_eq_canon]
    exact l_after_B _ _ _ _ _ _ _ _ _ _ _ _ _ _ _ _ _ _ _ _ _ _ _ _ _ _ _ _ _ _ _ _ _ r h

theorem a_at_next (c : Dev nD) (t : Fin cfg1.N) (h0 : ¬t.val % 8 = 0) (r : Fin 512) (h : Fin 16) (d : Fin 64) :
    (outsAt1 V c t.val t.isLt).2.2.2.1 (ix3 r h d)
      = aAfter (prevAt V c t).2.2.2.2 (kcAt V c t) (vcAt V c t) h (fun r => (prevAt V c t).2.1 (ix3 r h 0))
          (fun r d => (prevAt V c t).2.2.2.1 (ix3 r h d)) r d := by
  by_cases h1 : t.val % 8 = 7
  · rw [outsAt1_C V c t h0 h1]
    simp only [outs1_C, sout1_C_2, View.read_writes_junk_apply_eq_canon]
    exact a_after_C _ _ _ _ _ _ _ _ _ _ _ _ _ _ _ _ _ _ _ _ _ _ _ _ _ _ _ _ _ _ _ _ _ r h d
  · rw [outsAt1_B V c t h0 h1]
    simp only [outs1_B, sout1_B_2, View.read_writes_junk_apply_eq_canon]
    exact a_after_B _ _ _ _ _ _ _ _ _ _ _ _ _ _ _ _ _ _ _ _ _ _ _ _ _ _ _ _ _ _ _ _ _ r h d

theorem q_at_next (c : Dev nD) (t : Fin cfg1.N) (h0 : ¬t.val % 8 = 0) : (outsAt1 V c t.val t.isLt).2.2.2.2 = (prevAt V c t).2.2.2.2 := by
  by_cases h1 : t.val % 8 = 7
  · rw [outsAt1_C V c t h0 h1]
    rfl
  · rw [outsAt1_B V c t h0 h1]
    rfl

end Cert.KernelIdeal.ScratchVal

end
-- ==== Proof.ScratchA.lean ====
import proofs.«411452_j50508815401447_3_alg».proof.Proof.KI.R1RunA
import proofs.«411452_j50508815401447_3_alg».proof.Proof.PayValA
import proofs.«411452_j50508815401447_3_alg».proof.Proof.PayValB
import proofs.«411452_j50508815401447_3_alg».proof.Proof.PayValC
import proofs.«411452_j50508815401447_3_alg».proof.Proof.PayValInit
import proofs.«411452_j50508815401447_3_alg».proof.Proof.HeadSem
import Idealize.ShloMosaic.Lib.QrPanel.Panel

noncomputable section

namespace Cert.KernelIdeal.ScratchVal

open Cert.KernelIdeal Cert.KernelIdeal.Gen Cert.KernelIdeal.Hand Cert.KernelIdeal.PayVal Cert.KernelIdeal.HeadSem
open Idealize.ShloMosaic Idealize.ShloMosaic.ValueIdx
open Idealize.ShloMosaic.QrPanel.Panel (zeros2 zeros3)

section Slices

private abbrev Buf (n : Nat) : Shape := ⟨3, ![512, 16, n]⟩

private abbrev Inb (n k : Nat) : Prop := ∀ a : Fin 3, (![0, k, 0] : Fin 3 → Nat) a + (![512, 1, n] : Fin 3 → Nat) a ≤ (Buf n).size a

variable {n k : Nat} (inb : Inb n k) (kf : Fin 16)

-- Head `k`'s slice of a `[512, 16, n]` buffer: all rows, head `k`, all coordinates.
private abbrev slab : Rect (Buf n) := Rect.unit ![0, k, 0] ![512, 1, n] inb

private theorem slab_emb (hkf : kf.val = k) (r : Fin 512) (d : Fin n) : (slab inb).emb (ix3 r (0 : Fin 1) d) = ix3 r kf d := by
  funext a
  apply Fin.ext
  rw [Rect.emb_apply]
  match a with
  | ⟨0, _⟩ => show 0 + 1 * r.val = r.val; omega
  | ⟨1, _⟩ => show k + 1 * 0 = kf.val; omega
  | ⟨2, _⟩ => show 0 + 1 * d.val = d.val; omega

omit kf in
private theorem slab_not_mem (r : Fin 512) {h : Fin 16} (d : Fin n) (hne : h.val ≠ k) : ix3 r h d ∉ (slab inb).set := fun H => by
  have h1 : k ≤ h.val ∧ h.val < k + 1 := Rect.mem_set_unit.1 H (1 : Fin 3)
  omega

-- After `k` heads the buffer holds `g` in the slices of the heads below `k` and its starting value `z` elsewhere.
private def Inv (g : Fin 16 → Fin 512 → Fin n → EReal) (z : EReal) (k : Nat) (L : List (View.Piece (Elt Ideal) (Buf n) .f32)) : Prop :=
  ∀ r h d, View.canon L (ix3 r h d) = if h.val < k then g h r d else z

variable {g : Fin 16 → Fin 512 → Fin n → EReal} {z : EReal} {inb} {L : List (View.Piece (Elt Ideal) (Buf n) .f32)}

-- The whole buffer stored at `z` is the invariant before any head.
omit kf in
private theorem base {i0 : ∀ a, (![0, 0, 0] : Fin 3 → Nat) a + (Buf n).size a ≤ (Buf n).size a} {P : (Buf n).Idx → EReal} (hP : ∀ y, P y = z) :
    Inv g z 0 [⟨Rect.unit ![0, 0, 0] (Buf n).size i0, P⟩] := fun r h d => by
  rw [View.canon_unit_zero (S := Buf n) zeros3, hP, if_neg (Nat.not_lt_zero _)]

-- Storing `g` in head `k`'s slice advances the invariant: the slices are disjoint.
private theorem step (hkf : kf.val = k) {W : (⟨3, ![512, 1, n]⟩ : Shape).Idx → EReal} (hL : Inv g z k L)
    (hW : ∀ r d, W (ix3 r (0 : Fin 1) d) = g kf r d) :
    Inv g z (k + 1) ((⟨slab inb, W⟩ : View.Piece (Elt Ideal) (Buf n) .f32) :: L) := by
  intro r h d
  by_cases hh : h.val = k
  · rw [if_pos (by omega), show h = kf from Fin.ext (hh.trans hkf.symm), ← hW r d, ← slab_emb inb kf hkf r d]
    exact View.canon_cons_emb (slab inb) W L _
  · rw [View.canon_cons_of_not_mem ⟨slab inb, W⟩ L (slab_not_mem inb r d hh), hL r h d]
    exact if_congr (by omega) rfl rfl

-- Head `k`'s slice, which no head below `k` has stored to, still reads `z`.
private theorem load (hkf : kf.val = k) {sig : RefSig} {κ : Kind} {sp : Space} (v : View sig κ sp (Buf n) .f32) (hL : Inv g z k L)
    (r : Fin 512) (d : Fin n) : v.readCov L (slab inb).toLoadRect (ix3 r (0 : Fin 1) d) = z := by
  rw [View.readCov_eq_canon']
  exact (congrArg (View.canon L) (slab_emb inb kf hkf r d)).trans ((hL r kf d).trans (if_neg (by omega)))

end Slices

section Heads

-- The maxima, normalisers and weighted sums after `k` heads of the first key tile: each head's update from `(-∞, 0, 0)`.
private def Inv3 (qf : S512x1024.Idx → EReal) (kc vc : S256x1024.Idx → EReal) (k : Nat)
    (LM LL : List (View.Piece (Elt Ideal) S512x16x1 .f32)) (LA : List (View.Piece (Elt Ideal) S512x16x64 .f32)) : Prop :=
  Inv (fun h r _ => mAfter qf kc h (fun _ => ⊥) r) ⊥ k LM ∧
  Inv (fun h r _ => lAfter qf kc h (fun _ => ⊥) (fun _ => 0) r) 0 k LL ∧
  Inv (fun h => aAfter qf kc vc h (fun _ => ⊥) (fun _ _ => 0)) 0 k LA

-- One head: its loads read the starting values, so its three stores are the updates from them.
private theorem head {qf : S512x1024.Idx → EReal} {kc vc : S256x1024.Idx → EReal} {sig : RefSig} {κ : Kind} {sp : Space}
    {vM vL : View sig κ sp S512x16x1 .f32} {vA : View sig κ sp S512x16x64 .f32} {k : Nat} (kf : Fin 16) (hkf : kf.val = k) {i1 : Inb 1 k} {i64 : Inb 64 k}
    {WM WL : S512x1x1.Idx → EReal} {WA : S512x1x64.Idx → EReal} {LM LL LA} (h : Inv3 qf kc vc k LM LL LA)
    (hm : ∀ r, WM (ix3 r 0 0) = mAfter qf kc kf (fun r => vM.readCov LM (slab i1).toLoadRect (ix3 r 0 0)) r)
    (hl : ∀ r, WL (ix3 r 0 0) = lAfter qf kc kf (fun r => vM.readCov LM (slab i1).toLoadRect (ix3 r 0 0))
      (fun r => vL.readCov LL (slab i1).toLoadRect (ix3 r 0 0)) r)
    (ha : ∀ r d, WA (ix3 r 0 d) = aAfter qf kc vc kf (fun r => vM.readCov LM (slab i1).toLoadRect (ix3 r 0 0))
      (fun r d => vA.readCov LA (slab i64).toLoadRect (ix3 r 0 d)) r d) :
    Inv3 qf kc vc (k + 1) (⟨slab i1, WM⟩ :: LM) (⟨slab i1, WL⟩ :: LL) (⟨slab i64, WA⟩ :: LA) := by
  rw [funext fun r => load kf hkf vM h.1 r 0] at hm hl ha
  rw [funext fun r => load kf hkf vL h.2.1 r 0] at hl
  rw [funext fun r => funext fun d => load kf hkf vA h.2.2 r d] at ha
  exact ⟨step kf hkf h.1 fun r => Fin.forall_fin_one.2 (hm r), step kf hkf h.2.1 fun r => Fin.forall_fin_one.2 (hl r),
    step kf hkf h.2.2 ha⟩

end Heads

section Run

variable (c : Dev nD) (i : grid1.Coords) (arg3 : Memref sig .tc .vmem S1x512x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole) (arg9 : Memref sig .tc .vmem S512x16x1 .f32) (harg9 : arg9.IsWhole) (arg10 : Memref sig .tc .vmem S512x16x1 .f32) (harg10 : arg10.IsWhole) (arg11 : Memref sig .tc .vmem S512x16x64 .f32) (harg11 : arg11.IsWhole) (arg12 : Memref sig .tc .vmem S512x1024 .bf16) (harg12 : arg12.IsWhole) (hc0 : cond1_0 i) (hc1 : ¬cond1_1 i)
  (x0 : Vec Ideal S1x512x1024 .bf16) (x1 : Vec Ideal S1x2048x1024 .bf16) (x2 : Vec Ideal S1x2048x1024 .bf16) (x3 : Vec Ideal S1024x1024 .bf16) (x4 : Vec Ideal S1024 .f32)

local notation "RUN" => kernelRun1_A (F := Ideal) c i arg3 harg3 arg4 harg4 arg5 harg5 arg6 harg6 arg7 harg7 arg8 harg8 arg9 harg9 arg10 harg10 arg11 harg11 arg12 harg12 hc0 hc1 x0 x1 x2 x3 x4
local notation "Q0" => k1_pay5 (F := Ideal) x0
local notation "K0" => k1_pay6 (F := Ideal) (View.ld x1 (Rect.unit (s := S1x2048x1024) (k1_off1 i) S1x256x1024.size (k1_off1_inb i)))
local notation "V0" => k1_pay7 (F := Ideal) (View.ld x2 (Rect.unit (s := S1x2048x1024) (k1_off1 i) S1x256x1024.size (k1_off1_inb i)))

private theorem qf_eq : kernelRun1_A.sl.v11 (F := Ideal) c arg3 harg3 arg12 x0 = Q0 := by
  unfold kernelRun1_A.sl.v11 kernelRun1_A.sl.HS3_1
  rw [View.readCov_unit_zero (S := S512x1024) _ zeros2, View.readAt_eq_ld, harg3.read_unread, View.ld_unit_zero (S := S1x512x1024) zeros3]

private theorem kc_eq : kernelRun1_A.sl.r (F := Ideal) c i arg4 harg4 x1 = K0 := by
  unfold kernelRun1_A.sl.r
  rw [View.readAt_eq_ld, harg4.read_unread]

private theorem vc_eq : kernelRun1_A.sl.r_1 (F := Ideal) c i arg5 harg5 x2 = V0 := by
  unfold kernelRun1_A.sl.r_1
  rw [View.readAt_eq_ld, harg5.read_unread]

-- The sixteen heads in turn, from the three buffers stored whole at their starting values.
private theorem inv16 : Inv3 Q0 K0 V0 16 (RUN).2.1 (RUN).2.2.1 (RUN).2.2.2.1 := by
  rw [← qf_eq c arg3 harg3 arg12 x0, ← kc_eq c i arg4 harg4 x1, ← vc_eq c i arg5 harg5 x2]
  unfold kernelRun1_A
  dsimp only
  refine head 15 rfl ?_ (m_store_15 _ _ _) (l_store_15 _ _ _ _) (a_store_15 _ _ _ _ _)
  refine head 14 rfl ?_ (m_store_14 _ _ _) (l_store_14 _ _ _ _) (a_store_14 _ _ _ _ _)
  refine head 13 rfl ?_ (m_store_13 _ _ _) (l_store_13 _ _ _ _) (a_store_13 _ _ _ _ _)
  refine head 12 rfl ?_ (m_store_12 _ _ _) (l_store_12 _ _ _ _) (a_store_12 _ _ _ _ _)
  refine head 11 rfl ?_ (m_store_11 _ _ _) (l_store_11 _ _ _ _) (a_store_11 _ _ _ _ _)
  refine head 10 rfl ?_ (m_store_10 _ _ _) (l_store_10 _ _ _ _) (a_store_10 _ _ _ _ _)
  refine head 9 rfl ?_ (m_store_9 _ _ _) (l_store_9 _ _ _ _) (a_store_9 _ _ _ _ _)
  refine head 8 rfl ?_ (m_store_8 _ _ _) (l_store_8 _ _ _ _) (a_store_8 _ _ _ _ _)
  refine head 7 rfl ?_ (m_store_7 _ _ _) (l_store_7 _ _ _ _) (a_store_7 _ _ _ _ _)
  refine head 6 rfl ?_ (m_store_6 _ _ _) (l_store_6 _ _ _ _) (a_store_6 _ _ _ _ _)
  refine head 5 rfl ?_ (m_store_5 _ _ _) (l_store_5 _ _ _ _) (a_store_5 _ _ _ _ _)
  refine head 4 rfl ?_ (m_store_4 _ _ _) (l_store_4 _ _ _ _) (a_store_4 _ _ _ _ _)
  refine head 3 rfl ?_ (m_store_3 _ _ _) (l_store_3 _ _ _ _) (a_store_3 _ _ _ _ _)
  refine head 2 rfl ?_ (m_store_2 _ _ _) (l_store_2 _ _ _ _) (a_store_2 _ _ _ _ _)
  refine head 1 rfl ?_ (m_store_1 _ _ _) (l_store_1 _ _ _ _) (a_store_1 _ _ _ _ _)
  refine head 0 rfl ?_ (m_store_0 _ _ _) (l_store_0 _ _ _ _) (a_store_0 _ _ _ _ _)
  exact ⟨base pay2_apply, base pay3_apply, base pay4_apply⟩

theorem m_after_A (r : Fin 512) (h : Fin 16) :
    View.canon (RUN).2.1 (ix3 r h (0 : Fin 1)) = mAfter Q0 K0 h (fun _ => ⊥) r :=
  ((inv16 c i arg3 harg3 arg4 harg4 arg5 harg5 arg6 harg6 arg7 harg7 arg8 harg8 arg9 harg9 arg10 harg10 arg11 harg11 arg12 harg12 hc0 hc1 x0 x1 x2 x3 x4).1 r h 0).trans (if_pos h.isLt)

theorem l_after_A (r : Fin 512) (h : Fin 16) :
    View.canon (RUN).2.2.1 (ix3 r h (0 : Fin 1)) = lAfter Q0 K0 h (fun _ => ⊥) (fun _ => 0) r :=
  ((inv16 c i arg3 harg3 arg4 harg4 arg5 harg5 arg6 harg6 arg7 harg7 arg8 harg8 arg9 harg9 arg10 harg10 arg11 harg11 arg12 harg12 hc0 hc1 x0 x1 x2 x3 x4).2.1 r h 0).trans (if_pos h.isLt)

theorem a_after_A (r : Fin 512) (h : Fin 16) (d : Fin 64) :
    View.canon (RUN).2.2.2.1 (ix3 r h d) = aAfter Q0 K0 V0 h (fun _ => ⊥) (fun _ _ => 0) r d :=
  ((inv16 c i arg3 harg3 arg4 harg4 arg5 harg5 arg6 harg6 arg7 harg7 arg8 harg8 arg9 harg9 arg10 harg10 arg11 harg11 arg12 harg12 hc0 hc1 x0 x1 x2 x3 x4).2.2 r h d).trans (if_pos h.isLt)

theorem q_after_A (r : Fin 512) (f : Fin 1024) :
    View.canon (RUN).2.2.2.2.1 (ix2 r f) = x0 (ix3 (0 : Fin 1) r f) * ((1/8 : ℝ) : EReal) := by
  unfold kernelRun1_A
  dsimp only
  unfold kernelRun1_A.sl.HS3_1
  rw [View.canon_unit_zero (S := S512x1024) zeros2, View.readAt_eq_ld, harg3.read_unread, View.ld_unit_zero (S := S1x512x1024) zeros3]
  exact pay5_apply x0 r f

end Run

end Cert.KernelIdeal.ScratchVal

end
-- ==== Proof.ScratchAtFirst.lean ====
import proofs.«411452_j50508815401447_3_alg».proof.Proof.KI.R1
import proofs.«411452_j50508815401447_3_alg».proof.Proof.KI.R1Blocks
import proofs.«411452_j50508815401447_3_alg».proof.Proof.PayValInit
import proofs.«411452_j50508815401447_3_alg».proof.Proof.ScratchA
import proofs.«411452_j50508815401447_3_alg».proof.Proof.ScratchAtDefs
import Idealize.ShloMosaic.Lib.Pipeline.Value
import Idealize.ShloMosaic.Lib.Pipeline.FrameBody

noncomputable section

namespace Cert.KernelIdeal.ScratchVal

open Idealize.ShloMosaic Idealize.ShloMosaic.ValueIdx Idealize.ShloMosaic.TcCoe
open Cert.KernelIdeal Cert.KernelIdeal.Gen Cert.KernelIdeal.Hand Cert.KernelIdeal.HeadSem
open Idealize.SL.Sem

variable (V : (c : Dev nD) → (b : Ref sig .tc) → Buf (Elt Ideal) ((c : Thread nD τ).loc b))

theorem kcAt_apply (c : Dev nD) (t : Fin cfg1.N) (j : Fin 256) (f : Fin 1024) :
    kcAt V c t (ix2 j f)
      = V c main_v5_1 (ix3 (⟨t.val / 32, by have := point_lt t; omega⟩ : Fin 2)
          (⟨256 * (t.val % 8) + j.val, by have := j.isLt; omega⟩ : Fin 2048) f) :=
  (PayVal.pay6_apply _ j f).trans (key_tile_apply V c t j f)

theorem vcAt_apply (c : Dev nD) (t : Fin cfg1.N) (j : Fin 256) (f : Fin 1024) :
    vcAt V c t (ix2 j f)
      = V c main_v5_2 (ix3 (⟨t.val / 32, by have := point_lt t; omega⟩ : Fin 2)
          (⟨256 * (t.val % 8) + j.val, by have := j.isLt; omega⟩ : Fin 2048) f) :=
  (PayVal.pay7_apply _ j f).trans (value_tile_apply V c t j f)

theorem q_at_first (c : Dev nD) (t : Fin cfg1.N) (h0 : t.val % 8 = 0) :
    (outsAt1 V c t.val t.isLt).2.2.2.2 = k1_pay5 (F := Ideal) (iblk1 V c 0 t) := by
  rw [outsAt1_A V c t h0 (by omega)]
  funext y
  obtain ⟨r, f, rfl⟩ : ∃ (r : Fin 512) (f : Fin 1024), y = ix2 r f := ⟨y 0, y 1, eq_ix2 y⟩
  simp only [outs1_A, sout1_A_3, View.read_writes_junk_apply_eq_canon]
  exact (q_after_A _ _ _ _ _ _ _ _ _ _ _ _ _ _ _ _ _ _ _ _ _ _ _ _ _ _ _ _ _ r f).trans (PayVal.pay5_apply _ r f).symm

theorem m_at_first (c : Dev nD) (t : Fin cfg1.N) (h0 : t.val % 8 = 0) (r : Fin 512) (h : Fin 16) :
    (outsAt1 V c t.val t.isLt).2.1 (ix3 r h 0)
      = mAfter (k1_pay5 (F := Ideal) (iblk1 V c 0 t)) (kcAt V c t) h (fun _ => ⊥) r := by
  rw [outsAt1_A V c t h0 (by omega)]
  simp only [outs1_A, sout1_A_0, View.read_writes_junk_apply_eq_canon]
  exact m_after_A _ _ _ _ _ _ _ _ _ _ _ _ _ _ _ _ _ _ _ _ _ _ _ _ _ _ _ _ _ r h

theorem l_at_first (c : Dev nD) (t : Fin cfg1.N) (h0 : t.val % 8 = 0) (r : Fin 512) (h : Fin 16) :
    (outsAt1 V c t.val t.isLt).2.2.1 (ix3 r h 0)
      = lAfter (k1_pay5 (F := Ideal) (iblk1 V c 0 t)) (kcAt V c t) h (fun _ => ⊥) (fun _ => 0) r := by
  rw [outsAt1_A V c t h0 (by omega)]
  simp only [outs1_A, sout1_A_1, View.read_writes_junk_apply_eq_canon]
  exact l_after_A _ _ _ _ _ _ _ _ _ _ _ _ _ _ _ _ _ _ _ _ _ _ _ _ _ _ _ _ _ r h

theorem a_at_first (c : Dev nD) (t : Fin cfg1.N) (h0 : t.val % 8 = 0) (r : Fin 512) (h : Fin 16) (d : Fin 64) :
    (outsAt1 V c t.val t.isLt).2.2.2.1 (ix3 r h d)
      = aAfter (k1_pay5 (F := Ideal) (iblk1 V c 0 t)) (kcAt V c t) (vcAt V c t) h (fun _ => ⊥) (fun _ _ => 0) r d := by
  rw [outsAt1_A V c t h0 (by omega)]
  simp only [outs1_A, sout1_A_2, View.read_writes_junk_apply_eq_canon]
  exact a_after_A _ _ _ _ _ _ _ _ _ _ _ _ _ _ _ _ _ _ _ _ _ _ _ _ _ _ _ _ _ r h d

end Cert.KernelIdeal.ScratchVal

end
-- ==== Proof.Invariant.lean ====
import proofs.«411452_j50508815401447_3_alg».proof.Proof.InvariantCore
import proofs.«411452_j50508815401447_3_alg».proof.Proof.ScratchAt
import proofs.«411452_j50508815401447_3_alg».proof.Proof.ScratchAtFirst
import proofs.«411452_j50508815401447_3_alg».proof.Proof.KI.R1
import proofs.«411452_j50508815401447_3_alg».proof.Proof.KI.R1Blocks
import proofs.«411452_j50508815401447_3_alg».proof.Proof.PayValInit

noncomputable section

namespace Cert.KernelIdeal.Invariant

open Cert.KernelIdeal Cert.KernelIdeal.Gen Cert.KernelIdeal.Hand Cert.KernelIdeal.ScratchVal Cert.KernelIdeal.PayVal
open Idealize.ShloMosaic Idealize.ShloMosaic.TcCoe Idealize.ShloMosaic.ValueIdx
open Idealize.SL Idealize.SL.Sem
open Cert.Spec Cert.KerSpec Cert.TileSem

variable (V : (c : Dev nD) → (b : Ref sig .tc) → Buf (Elt Ideal) ((c : Thread nD τ).loc b))

-- After grid point n the running maximum, sum and accumulator are the online softmax's after n % 8 + 1 key tiles.
abbrev Inv (c : Dev nD) (n : ℕ) (hn : n < cfg1.N) : Prop :=
  Holds (V c main_v5_0) (V c main_v5_1) (V c main_v5_2) n (point_lt ⟨n, hn⟩)
    (outsAt1 V c n hn).2.1 (outsAt1 V c n hn).2.2.1 (outsAt1 V c n hn).2.2.2.1 (outsAt1 V c n hn).2.2.2.2

theorem first_case (c : Dev nD) (t : Fin cfg1.N) (h0 : t.val % 8 = 0) :
    Inv V c t.val t.isLt := by
  refine holds_first (V c main_v5_0) (V c main_v5_1) (V c main_v5_2) t.val (point_lt t) h0
    (fun _ => ⊥) (fun _ => 0) (outsAt1 V c t.val t.isLt).2.1 (outsAt1 V c t.val t.isLt).2.2.1
    (fun _ => 0) (outsAt1 V c t.val t.isLt).2.2.2.1 (outsAt1 V c t.val t.isLt).2.2.2.2 (kcAt V c t) (vcAt V c t)
    (fun r f => ?_) (fun _ _ => rfl) (fun _ _ => rfl) (fun _ _ _ => rfl)
    ⟨fun j f => ?_, fun j f => ?_, fun r h => ?_, fun r h => ?_, fun r h d => ?_⟩
  · rw [q_at_first V c t h0, pay5_apply, iblk1_0_apply V c t r f]
    rfl
  · exact (kcAt_apply V c t j f).trans rfl
  · exact (vcAt_apply V c t j f).trans rfl
  · rw [q_at_first V c t h0]; exact m_at_first V c t h0 r h
  · rw [q_at_first V c t h0]; exact l_at_first V c t h0 r h
  · rw [q_at_first V c t h0]; exact a_at_first V c t h0 r h d

theorem next_case (c : Dev nD) (t : Fin cfg1.N) (h0 : ¬t.val % 8 = 0)
    (prev : Inv V c (t.val - 1) (Nat.lt_of_le_of_lt (Nat.sub_le _ _) t.isLt)) :
    Inv V c t.val t.isLt := by
  refine holds_next (V c main_v5_0) (V c main_v5_1) (V c main_v5_2) t.val (point_lt t) h0
    (prevAt V c t).2.1 (prevAt V c t).2.2.1 (outsAt1 V c t.val t.isLt).2.1 (outsAt1 V c t.val t.isLt).2.2.1
    (prevAt V c t).2.2.2.1 (outsAt1 V c t.val t.isLt).2.2.2.1 (prevAt V c t).2.2.2.2 (outsAt1 V c t.val t.isLt).2.2.2.2
    (kcAt V c t) (vcAt V c t) prev
    (fun r f => ?_) ⟨fun j f => ?_, fun j f => ?_, fun r h => ?_, fun r h => ?_, fun r h d => ?_⟩
  · rw [q_at_next V c t h0]
  · exact (kcAt_apply V c t j f).trans rfl
  · exact (vcAt_apply V c t j f).trans rfl
  · rw [q_at_next V c t h0]; exact m_at_next V c t h0 r h
  · rw [q_at_next V c t h0]; exact l_at_next V c t h0 r h
  · rw [q_at_next V c t h0]; exact a_at_next V c t h0 r h d

theorem scratch_inv (c : Dev nD) : ∀ (n : ℕ) (hn : n < cfg1.N), Inv V c n hn := by
  intro n
  induction n with
  | zero => intro hn; exact first_case V c ⟨0, hn⟩ rfl
  | succ n ih =>
    intro hn
    by_cases h0 : (n + 1) % 8 = 0
    · exact first_case V c ⟨n + 1, hn⟩ h0
    · exact next_case V c ⟨n + 1, hn⟩ h0 (ih (Nat.lt_of_succ_lt hn))

theorem norm_last (c : Dev nD) (t : Fin cfg1.N) (h7 : t.val % 8 = 7) (r : Fin 512) (h : Fin 16) (d : Fin 64) :
    (outsAt1 V c t.val t.isLt).2.2.1 (ix3 r h (0 : Fin 1))
      = (stA (V c main_v5_0) (V c main_v5_1) (V c main_v5_2) (bOf t.val (point_lt t)) h (qRow (gOf t.val) r) d 8).2.1 := by
  have e := (scratch_inv V c t.val t.isLt).l r h d
  rw [h7] at e
  exact e

theorem acc_last (c : Dev nD) (t : Fin cfg1.N) (h7 : t.val % 8 = 7) (r : Fin 512) (h : Fin 16) (d : Fin 64) :
    (outsAt1 V c t.val t.isLt).2.2.2.1 (ix3 r h d)
      = (stA (V c main_v5_0) (V c main_v5_1) (V c main_v5_2) (bOf t.val (point_lt t)) h (qRow (gOf t.val) r) d 8).2.2 := by
  have e := (scratch_inv V c t.val t.isLt).a r h d
  rw [h7] at e
  exact e

end Cert.KernelIdeal.Invariant

end
-- ==== Proof.KI.R0Arr.lean ====
import proofs.«411452_j50508815401447_3_alg».proof.Proof.KI.R0

namespace Cert.KernelIdeal.Hand

open Cert.KernelIdeal Cert.KernelIdeal.Gen Idealize.ShloMosaic

-- Every block index (b, r) with b < 2 and r < 8 belongs to one of the sixteen grid points.
theorem idx_onto0 : ∀ (b : Fin 2) (r : Fin 8), ∃ t : Fin cfg0.N,
    win0_2.index t (0 : Fin 3) = b.val ∧ win0_2.index t (1 : Fin 3) = r.val :=
  (by decide +kernel : ∀ (b : Fin 2) (r : Fin 8), ∃ t : Fin grid0.N,
    win0_2.index t (0 : Fin 3) = b.val ∧ win0_2.index t (1 : Fin 3) = r.val)

-- The sixteen [1, 256, 1024] blocks at block indices (b, r, 0) cover the [2, 2048, 1024] array.
theorem cover0 (i : S2x2048x1024.Idx) : ∃ t : Fin cfg0.N, i ∈ (win0_2.rect t).set := by
  have h0 : (i 0).val < 2 := (i 0).isLt
  have h1 : (i 1).val < 2048 := (i 1).isLt
  have h2 : (i 2).val < 1024 := (i 2).isLt
  obtain ⟨t, (q0 : _ = (i 0).val), (q1 : _ = (i 1).val / 256)⟩ := idx_onto0 ⟨(i 0).val, h0⟩ ⟨(i 1).val / 256, by omega⟩
  refine ⟨t, Rect.mem_set_unit.mpr fun a => ?_⟩
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show 0 * 1024 ≤ (i 2).val ∧ (i 2).val < 0 * 1024 + 1024; omega

end Cert.KernelIdeal.Hand
-- ==== Proof.V0.lean ====
import proofs.«411452_j50508815401447_3_alg».proof.Proof.KI.Vals
import proofs.«411452_j50508815401447_3_alg».proof.Proof.KI.R0Arr
import proofs.«411452_j50508815401447_3_alg».proof.Proof.Spec
import Idealize.ShloMosaic.Lib.Pipeline.Value
import Idealize.ShloMosaic.Lib.ValueLayout
import Idealize.ShloMosaic.PureOps.Ideal.Laws

noncomputable section

namespace Cert.KernelIdeal.V0

open Cert.KernelIdeal Cert.KernelIdeal.Gen Cert.KernelIdeal.Hand
open Idealize.ShloMosaic Idealize.ShloMosaic.ValueIdx Idealize.ShloMosaic.TcCoe Idealize.SL.Sem
open Cert.Spec (qkv row wi headOf coordOf)

-- Entry (p, g) of the product of a row block with the transposed weights: the contraction over the shared axis.
theorem prod_at (x0 : FVec Ideal S1x256x1024 .f32) (x1 : FVec Ideal S3072x1024 .bf16) (p : Fin 256) (g : Fin 3072) :
    k0_pay1 x0 x1 (ix2 p g) = ∑ d : Fin 1024, x0 (ix3 (0 : Fin 1) p d) * x1 (ix2 g d) := by
  refine (Ideal.matmul_constant_zero_apply _ none _ _ _).trans ?_
  rw [← Equiv.sum_comp (contrEquiv1 _ 1024 rfl rfl).symm]
  refine Finset.sum_congr rfl fun d _ => ?_
  have hd := contrEquiv1_symm_val dot_S256x1024_S3072x1024_S256x3072_1_1_0_0_n_n 1024 rfl rfl d
  have el : dot_S256x1024_S3072x1024_S256x3072_1_1_0_0_n_n.lhsIdx (ix2 p g) _ = ix2 p d := Shape.idx_ext₂ rfl ((DotDims.lhsIdx_val_of_single _ rfl _ _).trans hd)
  have er : dot_S256x1024_S3072x1024_S256x3072_1_1_0_0_n_n.rhsIdx (ix2 p g) _ = ix2 g d := Shape.idx_ext₂ rfl ((DotDims.rhsIdx_val_of_single _ rfl _ _).trans hd)
  rw [el, er, truncf_apply, shapeCast_1ab_ab_apply, shapeCast_self]

-- The fused weights with their rows regrouped from (head, band, row) to (band, head, row).
def branchMajor (w : FVec Ideal S3072x1024 .f32) : FVec Ideal S3072x1024 .bf16 :=
  truncf .bf16 (shapeCast S3072x1024 (transpose S3x16x64x1024 [1, 0, 2, 3]
    (shapeCast S16x3x64x1024 w shapeCasts_S3072x1024_S16x3x64x1024) transposes_S16x3x64x1024_S3x16x64x1024_1_0_2_3)
    shapeCasts_S3x16x64x1024_S3072x1024) bitsLt_bf16_f32

-- Row 1024·br + f of the regrouped weights is row 192·(f / 64) + 64·br + f % 64 of the original.
theorem branchMajor_at (w : FVec Ideal S3072x1024 .f32) (br : Fin 3) (f : Fin 1024) (d : Fin 1024) :
    branchMajor w (ix2 (⟨1024 * br.val + f.val, by omega⟩ : Fin 3072) d)
      = w (wi (row (headOf f) br (coordOf f)) d) := by
  have hbr : br.val < 3 := br.isLt
  have hf : f.val < 1024 := f.isLt
  have hd : d.val < 1024 := d.isLt
  unfold branchMajor
  rw [truncf_apply,
    shapeCast_apply _ shapeCasts_S3x16x64x1024_S3072x1024 _ (ix4 br (headOf f) (coordOf f) d) (by
      rw [Shape.rowMajor_val_four, Shape.rowMajor_val_two]
      show ((br.val * 16 + f.val / 64) * 64 + f.val % 64) * 1024 + d.val = (1024 * br.val + f.val) * 1024 + d.val
      omega),
    transpose_apply [1, 0, 2, 3] _ transposes_S16x3x64x1024_S3x16x64x1024_1_0_2_3 _
      (ix4 (headOf f) br (coordOf f) d) (fun b => match b with
        | ⟨0, _⟩ => rfl
        | ⟨1, _⟩ => rfl
        | ⟨2, _⟩ => rfl
        | ⟨3, _⟩ => rfl),
    shapeCast_apply w shapeCasts_S3072x1024_S16x3x64x1024 _
      (wi (row (headOf f) br (coordOf f)) d) (by
      rw [Shape.rowMajor_val_two, Shape.rowMajor_val_four]
      show (192 * (f.val / 64) + 64 * br.val + f.val % 64) * 1024 + d.val
        = (((f.val / 64) * 3 + br.val) * 64 + f.val % 64) * 1024 + d.val
      omega)]

variable (m : (ℓ : Loc nD τ sig) → Buf (Elt Ideal) ℓ) (ρ : Dev nD → PrngReg) (c : Dev nD)

theorem entry_weights :
    (Hand.V1 m ρ c main_v3 : S3072x1024.Idx → EReal) = branchMajor (m ((c : Thread nD τ).loc main_arg1)) := by
  dsimp only [Hand.V1, Hand.W1, hostOps0]
  after_results
  rfl

theorem entry_acts : Hand.V1 m ρ c main_arg0 = m ((c : Thread nD τ).loc main_arg0) :=
  W1_of m ρ c main_arg0 (by decide)

theorem entry_outw :
    (Hand.V1 m ρ c main_v4 : S1024x1024.Idx → EReal) = m ((c : Thread nD τ).loc main_arg2) := by
  dsimp only [Hand.V1, Hand.W1, hostOps0]
  after_results
  rfl

theorem entry_bias : Hand.V1 m ρ c main_arg3 = m ((c : Thread nD τ).loc main_arg3) :=
  W1_of m ρ c main_arg3 (by decide)

-- At every grid point the weights' block is the whole regrouped array.
theorem weights_block (t : Fin cfg0.N) :
    (iblk0 (Hand.V1 m ρ) c 1 t : S3072x1024.Idx → EReal) = branchMajor (m ((c : Thread nD τ).loc main_arg1)) :=
  funext fun y => (congrFun (entry_weights m ρ c) _).trans (congrArg _ (funext fun a => Fin.ext
    (win0_1.rect_emb_val_of_index_zero t a (by match a with | ⟨0, _⟩ => rfl | ⟨1, _⟩ => rfl) y)))

-- Columns 1024·br … 1024·br + 1023 of point t's product are block t of band br of the fused projection.
theorem block (out : Vec Ideal S1x256x1024 .f32 → Vec Ideal S3072x1024 .bf16 → Vec Ideal S1x256x1024 .bf16) (br : Fin 3)
    (h : S256x3072.Slices ![0, 1024 * br.val] S256x1024)
    (hout : ∀ x0 x1, out x0 x1 = View.canon [⟨r0_0, shapeCast S1x256x1024 (truncf .bf16 (extractStridedSlice S256x1024 ![0, 1024 * br.val]
      (k0_pay1 (View.ld x0 r0_0) (View.ld x1 r0_1)) h) bitsLt_bf16_f32) shapeCasts_S256x1024_S1x256x1024⟩])
    (t : Fin cfg0.N) :
    out (iblk0 (Hand.V1 m ρ) c 0 t) (iblk0 (Hand.V1 m ρ) c 1 t)
      = fun j => qkv (m ((c : Thread nD τ).loc main_arg0)) (m ((c : Thread nD τ).loc main_arg1)) ((win0_2.rect t).emb j 0) ((win0_2.rect t).emb j 1)
          (row (headOf ((win0_2.rect t).emb j 2)) br (coordOf ((win0_2.rect t).emb j 2))) := by
  rw [hout, View.canon_unit_zero (funext (by decide)), View.ld_unit_zero (funext (by decide)),
    View.ld_unit_zero (funext (by decide)), weights_block]
  funext j
  obtain ⟨z, p, f, rfl⟩ : ∃ (z : Fin 1) (p : Fin 256) (f : Fin 1024), j = ix3 z p f := ⟨j 0, j 1, j 2, eq_ix3 j⟩
  have hz : z.val = 0 := by omega
  have h2 : (win0_2.rect t).emb (ix3 z p f) 2 = f := Fin.ext (by show 0 * 1024 + 1 * f.val = f.val; omega)
  rw [h2, shapeCast_ab_1ab_apply, truncf_apply, slice2_axis1_apply _ _ h p f ⟨1024 * br.val + f.val, by omega⟩ rfl, prod_at]
  refine Finset.sum_congr rfl fun d _ => ?_
  rw [branchMajor_at]
  refine congrArg (· * _) ((congrFun (entry_acts m ρ c) _).trans (congrArg _ (funext fun a => Fin.ext ?_)))
  match a with
  | ⟨0, _⟩ => show win0_2.index t (0 : Fin 3) * 1 + 1 * 0 = win0_2.index t (0 : Fin 3) * 1 + 1 * z.val; omega
  | ⟨1, _⟩ => rfl
  | ⟨2, _⟩ => show 0 * 1024 + 1 * d.val = d.val; omega

-- The three output arrays hold the specification's query, key and value of the input activations and weights.
theorem arr_q :
    (dat0 (Hand.V1 m ρ) c).arrAt 2 cfg0.N
      = fun i : S2x2048x1024.Idx => Cert.Spec.q (m ((c : Thread nD τ).loc main_arg0)) (m ((c : Thread nD τ).loc main_arg1))
          (i 0) (headOf (i 2)) (i 1) (coordOf (i 2)) :=
  (dat0 (Hand.V1 m ρ) c).arrAt_eq_of_cover 2 _
    (fun t _ => (congrArg _ (after0_2 _ c t)).trans
      (block m ρ c out0_2 0 slices_S256x3072_o0_0_S256x1024 (fun _ _ => rfl) t))
    fun i => (cover0 i).imp fun t h => ⟨flush0_2 t, (View.set_slice_whole main_v5_0 (win0_2.rect t)).symm ▸ h⟩

theorem arr_k :
    (dat0 (Hand.V1 m ρ) c).arrAt 3 cfg0.N
      = fun i : S2x2048x1024.Idx => Cert.Spec.k (m ((c : Thread nD τ).loc main_arg0)) (m ((c : Thread nD τ).loc main_arg1))
          (i 0) (headOf (i 2)) (i 1) (coordOf (i 2)) :=
  (dat0 (Hand.V1 m ρ) c).arrAt_eq_of_cover 3 _
    (fun t _ => (congrArg _ (after0_3 _ c t)).trans
      (block m ρ c out0_3 1 slices_S256x3072_o0_1024_S256x1024 (fun _ _ => rfl) t))
    fun i => (cover0 i).imp fun t h => ⟨flush0_3 t, (View.set_slice_whole main_v5_1 (win0_2.rect t)).symm ▸ h⟩

theorem arr_v :
    (dat0 (Hand.V1 m ρ) c).arrAt 4 cfg0.N
      = fun i : S2x2048x1024.Idx => Cert.Spec.v (m ((c : Thread nD τ).loc main_arg0)) (m ((c : Thread nD τ).loc main_arg1))
          (i 0) (headOf (i 2)) (i 1) (coordOf (i 2)) :=
  (dat0 (Hand.V1 m ρ) c).arrAt_eq_of_cover 4 _
    (fun t _ => (congrArg _ (after0_4 _ c t)).trans
      (block m ρ c out0_4 2 slices_S256x3072_o0_2048_S256x1024 (fun _ _ => rfl) t))
    fun i => (cover0 i).imp fun t h => ⟨flush0_4 t, (View.set_slice_whole main_v5_2 (win0_2.rect t)).symm ▸ h⟩

end Cert.KernelIdeal.V0

end
-- ==== Proof.Finite.lean ====
import proofs.«411452_j50508815401447_3_alg».proof.Pre_finite_inputs
import proofs.«411452_j50508815401447_3_alg».proof.Proof.LibOnlineSoftmax
import Idealize.ShloMosaic.PureOps.Ideal
import Idealize.ShloMosaic.Lib.ReduceAll
import Idealize.ShloMosaic.Lib.ValueIdx
import Mathlib.Tactic.Choose

noncomputable section

namespace Cert.Finite

open Idealize.ShloMosaic Cert.Pre_finite_inputs

instance : Subsingleton S_.Idx := ⟨fun a b => funext fun d => d.elim0⟩

theorem real_of_abs_lt (x : EReal)
    (h : Ideal.cmp .olt (max x (-x)) (Ideal.ofBits .f32 0x7F800000#32) = 1#1) :
    ∃ r : ℝ, x = (r : EReal) := by
  rw [show Ideal.ofBits .f32 0x7F800000#32 = (⊤ : EReal) by simp [Ideal.ofBits, Ideal.ieee]] at h
  induction x using EReal.rec with
  | bot => simp [Ideal.cmp] at h
  | coe r => exact ⟨r, rfl⟩
  | top => simp [Ideal.cmp] at h

theorem finite_of_pre [Facts] (a0 : FVec Ideal S2x2048x1024 .f32) (a1 : FVec Ideal S3072x1024 .f32)
    (a2 : FVec Ideal S1024x1024 .f32) (a3 : FVec Ideal S1024 .f32)
    (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i)⟩

section Closure

variable {ι : Type}

theorem sum_coe_mul_coe [Fintype ι] (f g : ι → ℝ) :
    ∑ i, (f i : EReal) * (g i : EReal) = ((∑ i, f i * g i : ℝ) : EReal) := by
  rw [Cert.OnlineSoftmax.coe_sum]
  exact Finset.sum_congr rfl fun i _ => (EReal.coe_mul (f i) (g i)).symm

theorem exists_real_fun (a : ι → EReal) (ha : ∀ i, ∃ r : ℝ, a i = (r : EReal)) :
    ∃ a' : ι → ℝ, a = fun i => (a' i : EReal) := by
  choose a' ha' using ha
  exact ⟨a', funext ha'⟩

end Closure

end Cert.Finite

end
-- ==== Proof.Bridge.lean ====
import proofs.«411452_j50508815401447_3_alg».proof.Proof.KerSpec
import proofs.«411452_j50508815401447_3_alg».proof.Proof.Finite
import Mathlib.Tactic.Ring
import Mathlib.Tactic.NormNum

noncomputable section

namespace Cert.Bridge

open Idealize.ShloMosaic Cert.OnlineSoftmax

theorem div_sqrt_word (a : EReal) :
    Ideal.div a (Ideal.sqrt (Ideal.ofBits .f32 0x42800000#32)) = a * ((1 / 8 : ℝ) : EReal) := by
  have h64 : Ideal.ofBits .f32 0x42800000#32 = ((64 : ℝ) : EReal) := by
    simp [Ideal.ofBits, Ideal.ieee, -EReal.coe_mul]; norm_num
  have h8 : Real.sqrt 64 = 8 := by
    rw [show (64 : ℝ) = 8 ^ 2 by norm_num]
    exact Real.sqrt_sq (by norm_num)
  rw [h64, Ideal.sqrt_coe, if_neg (by norm_num), h8]
  exact Ideal.div_coe (by norm_num) a

section Real

variable (x' : Spec.SX.Idx → ℝ) (w' : Spec.SW.Idx → ℝ)

def qkvR (b : Fin 2) (s : Fin 2048) (f : Fin 3072) : ℝ :=
  ∑ d : Fin 1024, x' (Spec.xi b s d) * w' (Spec.wi f d)

def scR (b : Fin 2) (h : Fin 16) (s j : Fin 2048) : ℝ :=
  (∑ r : Fin 64, qkvR x' w' b s (Spec.row h 0 r) * qkvR x' w' b j (Spec.row h 1 r)) * (1 / 8)

theorem qkv_coe (b : Fin 2) (s : Fin 2048) (f : Fin 3072) :
    Spec.qkv (fun i => (x' i : EReal)) (fun i => (w' i : EReal)) b s f = (qkvR x' w' b s f : EReal) := by
  unfold Spec.qkv qkvR
  exact Cert.Finite.sum_coe_mul_coe (fun d => x' (Spec.xi b s d)) (fun d => w' (Spec.wi f d))

theorem sc_coe (b : Fin 2) (h : Fin 16) (s j : Fin 2048) :
    Spec.sc (fun i => (x' i : EReal)) (fun i => (w' i : EReal)) b h s j = (scR x' w' b h s j : EReal) := by
  unfold Spec.sc Spec.q Spec.k scR
  rw [div_sqrt_word]
  simp only [qkv_coe]
  rw [Cert.Finite.sum_coe_mul_coe, ← EReal.coe_mul]

theorem scoreT_coe (b : Fin 2) (h : Fin 16) (s : Fin 2048) :
    KerSpec.scoreT (fun i => (x' i : EReal)) (fun i => (w' i : EReal)) b h s
      = fun t j => ((scR x' w' b h s ⟨(256 * t + j.val) % 2048, Nat.mod_lt _ (by norm_num)⟩ : ℝ) : EReal) := by
  funext t j
  unfold KerSpec.scoreT KerSpec.tileKey Spec.q Spec.k scR
  simp only [qkv_coe, ← EReal.coe_mul]
  rw [← coe_sum]
  congr 1
  rw [Finset.sum_mul]
  exact Finset.sum_congr rfl fun d _ => by ring

theorem valT_coe (b : Fin 2) (h : Fin 16) (d : Fin 64) :
    KerSpec.valT (fun i => (x' i : EReal)) (fun i => (w' i : EReal)) b h d
      = fun t j => ((qkvR x' w' b ⟨(256 * t + j.val) % 2048, Nat.mod_lt _ (by norm_num)⟩ (Spec.row h 2 d) : ℝ) : EReal) :=
  funext fun t => funext fun j => qkv_coe x' w' b _ _

theorem att_coe (b : Fin 2) (s : Fin 2048) (h : Fin 16) (d : Fin 64) :
    KerSpec.att (fun i => (x' i : EReal)) (fun i => (w' i : EReal)) b s h d
      = Spec.att (fun i => (x' i : EReal)) (fun i => (w' i : EReal)) b s h d := by
  have hq := run_quotient (scR x' w' b h s) (fun k => qkvR x' w' b k (Spec.row h 2 d))
  dsimp only at hq
  unfold KerSpec.att KerSpec.st
  rw [scoreT_coe, valT_coe]
  refine hq.trans ?_
  unfold Spec.att Spec.ex Spec.mx Spec.v
  simp only [sc_coe, qkv_coe]

end Real

theorem out_eq (x : Spec.SX.Idx → EReal) (w : Spec.SW.Idx → EReal) (ow : Spec.SO.Idx → EReal)
    (ob : Spec.SB.Idx → EReal) (hx : ∀ i, ∃ r : ℝ, x i = (r : EReal)) (hw : ∀ i, ∃ r : ℝ, w i = (r : EReal)) :
    KerSpec.out x w ow ob = Spec.out x w ow ob := by
  obtain ⟨x', rfl⟩ := Cert.Finite.exists_real_fun x hx
  obtain ⟨w', rfl⟩ := Cert.Finite.exists_real_fun w hw
  funext i
  unfold KerSpec.out Spec.out
  exact congrArg (fun z => z + ob (Spec.bi (i 2)))
    (Finset.sum_congr rfl fun f _ =>
      congrArg (fun z => z * ow (Spec.oi (i 2) f))
        (att_coe x' w' (i 0) (i 1) (Spec.headOf f) (Spec.coordOf f)))

end Cert.Bridge

end
-- ==== Proof.KernelValue.lean ====
import proofs.«411452_j50508815401447_3_alg».proof.Defs
import proofs.«411452_j50508815401447_3_alg».proof.Proof.Gen.Pre_finite_inputs
import proofs.«411452_j50508815401447_3_alg».proof.Proof.KI.Launch
import proofs.«411452_j50508815401447_3_alg».proof.Proof.KI.R1Arr
import proofs.«411452_j50508815401447_3_alg».proof.Proof.KI.R1Blocks
import proofs.«411452_j50508815401447_3_alg».proof.Proof.ScratchC
import proofs.«411452_j50508815401447_3_alg».proof.Proof.Invariant
import proofs.«411452_j50508815401447_3_alg».proof.Proof.V0
import proofs.«411452_j50508815401447_3_alg».proof.Proof.KerSpecArr
import proofs.«411452_j50508815401447_3_alg».proof.Proof.Bridge
import proofs.«411452_j50508815401447_3_alg».proof.Proof.Finite

noncomputable section

namespace Cert.KernelValue

open Cert.KernelIdeal Cert.KernelIdeal.Gen Cert.KernelIdeal.Hand
open Idealize.ShloMosaic Idealize.ShloMosaic.TcCoe Idealize.ShloMosaic.ValueIdx
open Idealize.SL Idealize.SL.Sem
open Cert.Spec Cert.KerSpec

def bOf (t : Fin cfg1.N) : Fin 2 := ⟨t.val / 32, by have := point_lt t; omega⟩

def sOf (t : Fin cfg1.N) (r : Fin 512) : Fin 2048 := ⟨512 * ((t.val / 8) % 4) + r.val, by have := r.isLt; omega⟩

section Region1

variable (V : (c : Dev nD) → (b : Ref sig .tc) → Buf (Elt Ideal) ((c : Thread nD τ).loc b)) (c : Dev nD)

def resultArr : SX.Idx → EReal :=
  KerSpec.outOf (V c main_v5_0) (V c main_v5_1) (V c main_v5_2) (V c main_v4) (V c main_arg3)

theorem block_of_sums (t : Fin cfg1.N)
    (O : Vec Ideal S1x512x1024 .f32) (Ls : Vec Ideal S512x16x1 .f32) (As : Vec Ideal S512x16x64 .f32)
    (hO : ∀ (r : Fin 512) (e : Fin 1024), O (ix3 (0 : Fin 1) r e)
        = (∑ f : Fin 1024, Ideal.div (As (ix3 r (headOf f) (coordOf f))) (Ls (ix3 r (headOf f) (0 : Fin 1)))
              * iblk1 V c 3 t (ix2 e f)) + iblk1 V c 4 t (ix1 e))
    (hL : ∀ (r : Fin 512) (h : Fin 16) (d : Fin 64),
        Ls (ix3 r h (0 : Fin 1)) = (stA (V c main_v5_0) (V c main_v5_1) (V c main_v5_2) (bOf t) h (sOf t r) d 8).2.1)
    (hA : ∀ (r : Fin 512) (h : Fin 16) (d : Fin 64),
        As (ix3 r h d) = (stA (V c main_v5_0) (V c main_v5_1) (V c main_v5_2) (bOf t) h (sOf t r) d 8).2.2) :
    O = ((cfg1.win 5).blk t).view.read (Elt Ideal) (resultArr V c) := by
  funext y
  obtain ⟨z, r, e, rfl⟩ : ∃ (z : Fin 1) (r : Fin 512) (e : Fin 1024), y = ix3 z r e := ⟨y 0, y 1, y 2, eq_ix3 y⟩
  have hz : z = (0 : Fin 1) := Fin.ext (by omega)
  subst hz
  rw [hO, iblk1_4_apply]
  refine Eq.trans ?_ (congrArg (resultArr V c) (row_block_emb t r e)).symm
  exact congrArg (· + _) (Finset.sum_congr rfl fun f _ => by
    rw [hA, hL r (headOf f) (coordOf f), iblk1_3_apply]
    rfl)

end Region1

theorem region1_value (V : (c : Dev nD) → (b : Ref sig .tc) → Buf (Elt Ideal) ((c : Thread nD τ).loc b)) (c : Dev nD) :
    (Hand.dat1 V c).arrAt 5 cfg1.N = resultArr V c :=
  Hand.arrAt1_5_eq_of V c (resultArr V c) fun t h7 =>
    block_of_sums V c t _ _ _
      (fun r e => Cert.KernelIdeal.ScratchVal.out_at_C V c t h7 r e)
      (fun r h d => Cert.KernelIdeal.Invariant.norm_last V c t h7 r h d)
      (fun r h d => Cert.KernelIdeal.Invariant.acc_last V c t h7 r h d)

theorem result_eq (m : (ℓ : Loc nD τ sig) → Buf (Elt Ideal) ℓ) (ρ : Dev nD → PrngReg) (hpre : Cert.Pre_KernelIdeal m)
    (c : Dev nD) :
    (Hand.dat1 (Hand.V2 m ρ) c).arrAt 5 cfg1.N
      = Cert.Spec.out (m ((c : Thread nD τ).loc main_arg0)) (m ((c : Thread nD τ).loc main_arg1))
          (m ((c : Thread nD τ).loc main_arg2)) (m ((c : Thread nD τ).loc main_arg3)) := by
  obtain ⟨hx, hw, -, -⟩ := Cert.Finite.finite_of_pre _ _ _ _ (hpre c)
  exact (region1_value (Hand.V2 m ρ) c).trans ((congr (congr (congr (congr (congrArg KerSpec.outOf
    ((Hand.W2_arr m ρ c 2).trans (Cert.KernelIdeal.V0.arr_q m ρ c))) ((Hand.W2_arr m ρ c 3).trans (Cert.KernelIdeal.V0.arr_k m ρ c)))
    ((Hand.W2_arr m ρ c 4).trans (Cert.KernelIdeal.V0.arr_v m ρ c)))
    ((Hand.W2_of_ne m ρ c main_v4 (by decide)).trans (Cert.KernelIdeal.V0.entry_outw m ρ c)))
    ((Hand.W2_of_ne m ρ c main_arg3 (by decide)).trans (Cert.KernelIdeal.V0.entry_bias m ρ c))).trans
    ((KerSpec.outOf_arr _ _ _ _).trans (Cert.Bridge.out_eq _ _ _ _ hx hw)))

end Cert.KernelValue

end
-- ==== Proof.lean ====
import proofs.«411452_j50508815401447_3_alg».proof.Defs
import proofs.«411452_j50508815401447_3_alg».proof.Proof.Gen.Kernel
import proofs.«411452_j50508815401447_3_alg».proof.Proof.Gen.KernelIdeal
import proofs.«411452_j50508815401447_3_alg».proof.Proof.Gen.ReferenceIdeal
import proofs.«411452_j50508815401447_3_alg».proof.Proof.Gen.Pre_finite_inputs
import proofs.«411452_j50508815401447_3_alg».proof.Proof.KB.Launch
import proofs.«411452_j50508815401447_3_alg».proof.Proof.KI.Launch
import proofs.«411452_j50508815401447_3_alg».proof.Proof.RefValue
import proofs.«411452_j50508815401447_3_alg».proof.Proof.KernelValue
import Idealize.ShloMosaic.Adequacy
import Idealize.ShloMosaic.Init

noncomputable section

namespace Cert.Proof

open Idealize.ShloMosaic Idealize.ShloMosaic.TcCoe Idealize.SL.Sem

-- Each program's run ends, faults nowhere and leaves its arguments as they were: the run's own post, the result dropped.
theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.RefValue.run m ρ)

-- Over the extended reals both programs end at one function of the four arguments: softmax attention per head, then the output projection.
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelValue.result_eq m ρ hpre c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
